-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S256x64 : Shape := ⟨2, ![256, 64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_arg4 : FVec F S256x64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  main_v23

def fn {F : FTy → Type} [FloatOps F] (main_arg0 : FVec F S8192x512 .f32) (main_arg1 : FVec F S8192x8192 .f32) (main_arg2 : FVec F S512x256 .f32) (main_arg3 : FVec F S256x64 .f32) (main_arg4 : FVec F S256x64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S256x64 : Shape := ⟨2, ![256, 64]⟩
abbrev S8192x256 : Shape := ⟨2, ![8192, 256]⟩
abbrev S2048x512 : Shape := ⟨2, ![2048, 512]⟩
abbrev S2048x256 : Shape := ⟨2, ![2048, 256]⟩
abbrev S1024x1024 : Shape := ⟨2, ![1024, 1024]⟩
abbrev S1024x256 : Shape := ⟨2, ![1024, 256]⟩
abbrev S256x128 : Shape := ⟨2, ![256, 128]⟩
abbrev S8192x128 : Shape := ⟨2, ![8192, 128]⟩
abbrev S2048x128 : Shape := ⟨2, ![2048, 128]⟩
abbrev S8192x64 : Shape := ⟨2, ![8192, 64]⟩
abbrev S1024x128 : Shape := ⟨2, ![1024, 128]⟩
abbrev S1024x64 : Shape := ⟨2, ![1024, 64]⟩
abbrev S2048x64 : Shape := ⟨2, ![2048, 64]⟩
abbrev S2048x2048 : Shape := ⟨2, ![2048, 2048]⟩

abbrev nBuf : Space → Nat
  | .hbm => 12
  | .vmem => 34
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256x64, .f32⟩
  | .hbm, ⟨4, _⟩ => ⟨S256x64, .f32⟩
  | .hbm, ⟨5, _⟩ => ⟨S8192x256, .f32⟩
  | .hbm, ⟨6, _⟩ => ⟨S8192x256, .f32⟩
  | .hbm, ⟨7, _⟩ => ⟨S256x128, .f32⟩
  | .hbm, ⟨8, _⟩ => ⟨S8192x128, .f32⟩
  | .hbm, ⟨9, _⟩ => ⟨S8192x64, .f32⟩
  | .hbm, ⟨10, _⟩ => ⟨S8192x64, .f32⟩
  | .hbm, ⟨11, _⟩ => ⟨S8192x8192, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S1024x1024, .f32⟩
  | .local _ .vmem, ⟨7, _⟩ => ⟨S1024x1024, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S2048x256, .f32⟩
  | .local _ .vmem, ⟨14, _⟩ => ⟨S2048x256, .f32⟩
  | .local _ .vmem, ⟨15, _⟩ => ⟨S256x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S1024x1024, .f32⟩
  | .local _ .vmem, ⟨20, _⟩ => ⟨S1024x1024, .f32⟩
  | .local _ .vmem, ⟨21, _⟩ => ⟨S1024x128, .f32⟩
  | .local _ .vmem, ⟨22, _⟩ => ⟨S1024x128, .f32⟩
  | .local _ .vmem, ⟨23, _⟩ => ⟨S1024x64, .f32⟩
  | .local _ .vmem, ⟨24, _⟩ => ⟨S1024x64, .f32⟩
  | .local _ .vmem, ⟨25, _⟩ => ⟨S1024x64, .f32⟩
  | .local _ .vmem, ⟨26, _⟩ => ⟨S1024x64, .f32⟩
  | .local _ .vmem, ⟨27, _⟩ => ⟨S1024x128, .f32⟩
  | .local _ .vmem, ⟨28, _⟩ => ⟨S2048x64, .f32⟩
  | .local _ .vmem, ⟨29, _⟩ => ⟨S2048x64, .f32⟩
  | .local _ .vmem, ⟨30, _⟩ => ⟨S2048x64, .f32⟩
  | .local _ .vmem, ⟨31, _⟩ => ⟨S2048x64, .f32⟩
  | .local _ .vmem, ⟨32, _⟩ => ⟨S2048x2048, .f32⟩
  | .local _ .vmem, ⟨33, _⟩ => ⟨S2048x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 1], ![false, false]⟩

def k2_cond2 (i : grid2.Coords) : BitVec 1 :=
  let arg1 : BitVec 32 := BitVec.ofNat 32 (i 1).val
  let c0_i32_8 : BitVec 32 := 0#32
  let v15 : BitVec 1 := Scalar.cmpi .eq arg1 c0_i32_8
  let v16 : BitVec 32 := Scalar.extui v15
  let c0_i32_9 : BitVec 32 := 0#32
  let v17 : BitVec 1 := Scalar.cmpi .ne v16 c0_i32_9
  v17

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1024x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![4, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S2048x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

class Facts₀ : Prop where
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  concatenates_S256x64_S256x64_S256x128_d1 : Shape.Concatenates [S256x64, S256x64] S256x128 1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S1024x128_o0_0_S1024x64 : S1024x128.Slices ![0, 0] S1024x64
  inb_S1024x64_S1024x64_0_0 : ∀ a, (![0, 0] : Fin 2 → Nat) a + S1024x64.size a ≤ S1024x64.size a
  h_S1024x64 : 0 < S1024x64.numel
  slices_S1024x128_o0_64_S1024x64 : S1024x128.Slices ![0, 64] S1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  dot_S2048x512_S512x256_S2048x256_1_0_0_1_n_n_wf : DotDims.WF S2048x512 S512x256 S2048x256 [1] [0] [0] [1] [] []
  dot_S1024x1024_S1024x256_S1024x256_1_0_0_1_n_n_wf : DotDims.WF S1024x1024 S1024x256 S1024x256 [1] [0] [0] [1] [] []
  dot_S2048x256_S256x128_S2048x128_1_0_0_1_n_n_wf : DotDims.WF S2048x256 S256x128 S2048x128 [1] [0] [0] [1] [] []
  dot_S1024x1024_S1024x128_S1024x128_1_0_0_1_n_n_wf : DotDims.WF S1024x1024 S1024x128 S1024x128 [1] [0] [0] [1] [] []
  dot_S2048x64_S2048x64_S2048x2048_1_1_0_0_n_n_wf : DotDims.WF S2048x64 S2048x64 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S8192x256.size a
  hwx2_0 : ∀ i : grid2.Coords, EltTy.bits .f32 = 32 ∨ (Rect.block (s := S8192x256) S2048x256.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S8192x128.size a
  hwx2_2 : ∀ i : grid2.Coords, EltTy.bits .f32 = 32 ∨ (Rect.block (s := S8192x128) S2048x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x8192.size a
  hwx3_0 : ∀ i : grid3.Coords, EltTy.bits .f32 = 32 ∨ (Rect.block (s := S8192x8192) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S8192x128.size a
  hwx3_1 : ∀ i : grid3.Coords, EltTy.bits .f32 = 32 ∨ (Rect.block (s := S8192x128) S1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x64.size a ≤ S8192x64.size a
  hwx3_2 : ∀ i : grid3.Coords, EltTy.bits .f32 = 32 ∨ (Rect.block (s := S8192x64) S1024x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x64.size a ≤ S8192x64.size a
  hwx3_3 : ∀ i : grid3.Coords, EltTy.bits .f32 = 32 ∨ (Rect.block (s := S8192x64) S1024x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x64.size a ≤ S8192x64.size a
  hwx4_0 : ∀ i : grid4.Coords, EltTy.bits .f32 = 32 ∨ (Rect.block (s := S8192x64) S2048x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x64.size a ≤ S8192x64.size a
  hwx4_1 : ∀ i : grid4.Coords, EltTy.bits .f32 = 32 ∨ (Rect.block (s := S8192x64) S2048x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x2048.size a ≤ S8192x8192.size a
  hwx4_2 : ∀ i : grid4.Coords, EltTy.bits .f32 = 32 ∨ (Rect.block (s := S8192x8192) S2048x2048.size (cc4_transform_2 i) (hinb4_2 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v1) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S256x128.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S2048x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_arg1) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4_0) S1024x64.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v4_1) S1024x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun i => !(k3_cond2 i == 1#1) | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v4_0) S2048x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4_0) S2048x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v5) S2048x2048.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S256x64 : Shape := ⟨2, ![256, 64]⟩
abbrev S8192x256 : Shape := ⟨2, ![8192, 256]⟩
abbrev S_ : Shape := ⟨0, ![]⟩
abbrev S8192x64 : Shape := ⟨2, ![8192, 64]⟩
abbrev S64x8192 : Shape := ⟨2, ![64, 8192]⟩

abbrev nBuf : Space → Nat
  | .hbm => 16
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256x64, .f32⟩
  | .hbm, ⟨4, _⟩ => ⟨S256x64, .f32⟩
  | .hbm, ⟨5, _⟩ => ⟨S8192x256, .f32⟩
  | .hbm, ⟨6, _⟩ => ⟨S8192x256, .f32⟩
  | .hbm, ⟨7, _⟩ => ⟨S_, .f32⟩
  | .hbm, ⟨8, _⟩ => ⟨S8192x256, .f32⟩
  | .hbm, ⟨9, _⟩ => ⟨S8192x256, .f32⟩
  | .hbm, ⟨10, _⟩ => ⟨S8192x64, .f32⟩
  | .hbm, ⟨11, _⟩ => ⟨S8192x64, .f32⟩
  | .hbm, ⟨12, _⟩ => ⟨S8192x64, .f32⟩
  | .hbm, ⟨13, _⟩ => ⟨S8192x64, .f32⟩
  | .hbm, ⟨14, _⟩ => ⟨S64x8192, .f32⟩
  | .hbm, ⟨15, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  transposes_S8192x64_S64x8192_1_0 : S8192x64.Transposes [1, 0] S64x8192
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x64_S8192x64_1_0_0_1_n_n_wf : DotDims.WF S8192x256 S256x64 S8192x64 [1] [0] [0] [1] [] []
  dot_S8192x8192_S8192x64_S8192x64_1_0_0_1_n_n_wf : DotDims.WF S8192x8192 S8192x64 S8192x64 [1] [0] [0] [1] [] []
  dot_S8192x64_S64x8192_S8192x8192_1_0_0_1_n_n_wf : DotDims.WF S8192x64 S64x8192 S8192x8192 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.Bits.F0.Run.lean ====
import proofs.«141517_j31224412242681_1_alg».proof.Proof.Gen.Kernel.Launch
import proofs.«141517_j31224412242681_1_alg».proof.Proof.Gen.Kernel.Skeleton
import proofs.«141517_j31224412242681_1_alg».proof.Proof.Gen.Kernel.Points
import Idealize.ShloMosaic.Lib.Pipeline.Value
import Idealize.ShloMosaic.Lib.Ring
import Idealize.ShloMosaic.Lib.Pipeline.TableIdle

noncomputable section

namespace Cert.Kernel.Hand

open Idealize.ShloMosaic Idealize.ShloMosaic.TcCoe
open Idealize.SL.RA Idealize.SL.BI
open Idealize.SL.BI.BIBase Idealize.SL.Sem
open Cert.Kernel.Gen

variable {F : FTy → Type} [FloatOps F]

local notation "𝕄" => MT nD τ sig Unit (Elt F) ℕ (UR sig nD τ) ℕ

-- The two tests of the body: the reduction coordinate is the first, and the last, of its axis.
abbrev cond0 (i : grid0.Coords) : Prop :=
  Scalar.cmpi .ne (Scalar.extui (Scalar.cmpi .eq (BitVec.ofNat 32 (i 1).val) 0#32)) 0#32 = 1#1 ∧ k0_cond2 i = 1#1

-- The reduction axis has one point, so both hold everywhere.
theorem hcond0 : ∀ t : Fin cfg0.N, cond0 (grid0.coords t) :=
  (by decide +kernel : ∀ t : Fin grid0.N, cond0 (grid0.coords t))

theorem liveAt0 : ∀ t : Fin cfg0.N, cfg0.idle 2 (grid0.coords t) = false := by decide +kernel

set_option maxHeartbeats 1000000 in
-- Both tests hold: the accumulator is zeroed, the product of the two blocks is added to it, and the sum is stored in the output block.
theorem sound_kernel0 (c : Dev nD) (E : Set ℕ) (i : grid0.Coords) (hc : cond0 i) (arg2 : Memref sig .tc .vmem S2048x512 .f32) (harg2 : arg2.IsWhole)
    (arg3 : Memref sig .tc .vmem S512x256 .f32) (harg3 : arg3.IsWhole) (arg4 : Memref sig .tc .vmem S2048x256 .f32) (harg4 : arg4.IsWhole)
    (arg5 : Memref sig .tc .vmem S2048x256 .f32) (harg5 : arg5.IsWhole) (x0 : Vec F S2048x512 .f32) (x1 : Vec F S512x256 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (k0_pay2 x0 x1 k0_pay1) ∗ (∃ d, owns (c : Thread nD τ) arg5 fullShare d)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  rw [owns_eq_rep (c : Thread nD τ) arg2, owns_eq_rep (c : Thread nD τ) arg3]; unfold owns
  iintro ⟨H0, H1, ⟨%d2, %f2, -, H2⟩, ⟨%ds0, %fs0, -, HS0⟩, Hk⟩
  sl_exec (disch := first | exact hc.1 | exact hc.2)
  sl_step
  iapply Hk
  iframe H0 H1
  isplitl [H2]
  · iexists _; isplitr
    swap; · iexact H2
    ipureintro
    rw [View.read_writes_eq_canon _ _ _ fun y => ⟨_, List.mem_singleton_self _, View.mem_set_unit_zero (by decide) inb_S2048x256_S2048x256_0_0 y⟩, View.canon_unit_zero (by decide)]
    sl_unfold_words
    rw [View.readCov_cons_toLoadRect, View.readCov_unit_zero _ (by decide), View.readAt_rep, View.readAt_rep]
    exact congrArg₂ (k0_pay2 · · _) (View.ld_unit_zero (S := S2048x512) (by decide) _ x0) (View.ld_unit_zero (S := S512x256) (by decide) _ x1)
  iexists _, _; isplitr
  swap; · iexact HS0
  ipureintro; rfl

end Cert.Kernel.Hand

end
-- ==== Proof.Bits.F0.lean ====
import proofs.«141517_j31224412242681_1_alg».proof.Proof.Bits.F0.Run

noncomputable section

namespace Cert.Kernel.Hand

open Idealize.ShloMosaic Idealize.ShloMosaic.TcCoe
open Idealize.SL.RA Idealize.SL.BI
open Idealize.SL.BI.BIBase Idealize.SL.Sem
open Idealize.ShloMosaic.Pipeline (Dat BodyObligation)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block at point t, read off its array as the region finds it.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The body leaves each input block in place and the product of the two blocks in the output block.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay2 (iblk0 V c 0 t) (iblk0 V c 1 t) k0_pay1
  Φ _ := Pipeline.ΦA spec0 c
  q _ := fullShare
  owed _ := 0

theorem A_eq0 (c : Dev nD) (w : Fin cfg0.W) : (dat0 V c).A w = V c (Pipeline.arrRef spec0 w) := rfl

theorem before0 (c : Dev nD) (t : Fin cfg0.N) :
    (∀ d, (dat0 V c).before 0 t d = iblk0 V c 0 t) ∧ ∀ d, (dat0 V c).before 1 t d = iblk0 V c 1 t := by
  constructor <;> exact fun d => Dat.before_in_eq_fetched _ _ rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0, liveAt0 t]
  show iprop(Pipeline.ΦA spec0 c ∗ _) ⊢ wp _ _ _ (bodyAt0 t) fun _ => iprop(Pipeline.ΦA spec0 c ∗ _)
  unfold Pipeline.ΦA
  simp only [scopedRest0_split, ← owns_whole, (before0 V c t).1, (before0 V c t).2]
  iintro ⟨⟨⟨HS, Hr⟩, Hg⟩, Ho, ⟨%d0, H0⟩, ⟨%d1, H1⟩, ⟨%d2, H2⟩⟩
  iapply (sound_kernel0 c Set.univ _ (hcond0 t) _ _ _ _ _ _ _ _ (iblk0 V c 0 t) (iblk0 V c 1 t) _)
  iframe H0 H1 HS
  isplitl [H2]; · iexists _; iexact H2
  iintro ⟨H0, H1, H2, HS⟩
  iframe HS Hr Hg
  isplitl [Ho]; · iexact Ho
  isplitl [H0]; · iexact H0
  isplitl [H1]; · iexact H1
  iexact H2

theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := .rfl

end Cert.Kernel.Hand

end
-- ==== Proof.Bits.F1.Runs.lean ====
import proofs.«141517_j31224412242681_1_alg».proof.Proof.Gen.Kernel.Launch
import proofs.«141517_j31224412242681_1_alg».proof.Proof.Gen.Kernel.Skeleton
import proofs.«141517_j31224412242681_1_alg».proof.Proof.Gen.Kernel.Points
import Idealize.ShloMosaic.Lib.Pipeline.Value
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1
-- The body's first branch is taken exactly at the first column block of a row block,
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
-- and its second exactly at the last.
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev ms1_0 (t : Fin cfg1.N) : Memref sig .tc .vmem S1024x1024 .f32 := win1_0.stage (cfg1.slots t 0)
abbrev ms1_1 (t : Fin cfg1.N) : Memref sig .tc .vmem S1024x256 .f32 := win1_1.stage (cfg1.slots t 1)
abbrev ms1_2 (t : Fin cfg1.N) : Memref sig .tc .vmem S1024x256 .f32 := win1_2.stage (cfg1.slots t 2)
abbrev scM1_0 : Memref sig .tc .vmem S1024x256 .f32 := Memref.whole cc1_scratch0

/-- The region's resting invariant with `P` in place of the accumulator's ownership. -/
def Phi1 (c : Dev nD) (P : sProp 𝕄) : sProp 𝕄 :=
  iprop(iprop(P ∗ Pipeline.scopedRestBut (Ix := Unit) (Name := ℕ) (U := UR sig nD τ) (Lvl := ℕ) (Val := Elt F) spec1 c [cc1_scratch0]) ∗ (∃ r, prngReg c r))

theorem Phi1_mono (c : Dev nD) {P Q : sProp 𝕄} (h : P ⊢ Q) : Phi1 c P ⊢ Phi1 c Q :=
  sep_mono (sep_mono h .rfl) .rfl

theorem PhiA1_eq (c : Dev nD) : (Pipeline.ΦA spec1 c : sProp 𝕄) = Phi1 c iprop(∃ d, owns c.tc scM1_0 fullShare d) := by
  unfold Pipeline.ΦA Phi1; rw [scopedRest1_split]; simp only [scM1_0, owns_whole]; try rfl

theorem hz1 : (![0, 0] : Fin 2 → Nat) = fun _ => 0 := funext fun a => by fin_cases a <;> rfl

/-- A store of the whole block, made last, leaves its payload whatever was stored before. -/
theorem read_writes_whole1 {sg : RefSig} {κ : Kind} {sp : Space} (v : View sg κ sp S1024x256 .f32) (f : v.ty.Contents (Elt F)) (w : Vec F S1024x256 .f32) (L : List (View.Piece (Elt F) S1024x256 .f32)) :
    v.read (Elt F) (v.writes (Elt F) f (⟨Rect.unit ![0, 0] S1024x256.size inb_S1024x256_S1024x256_0_0, w⟩ :: L)) = w :=
  (View.read_writes_eq_canon _ _ _ fun y => ⟨_, List.mem_cons_self, View.mem_set_unit_zero hz1 inb_S1024x256_S1024x256_0_0 y⟩).trans (View.canon_cons_unit_zero hz1 _ w L)

variable (c : Dev nD) (i : grid1.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole)
  (x0 : Vec F S1024x1024 .f32) (x1 x2 xs : Vec F S1024x256 .f32) (E : Set ℕ)

set_option maxHeartbeats 1000000 in
/-- The body at any point that is not both first and last of a row block: the partial product of the two input blocks is added onto the accumulator, zeroed first at the start of a row block, and at its end the output buffer gets the sum clamped below at zero. -/
theorem run1 (h : ¬(cond1_0 i ∧ cond1_1 i)) (K : PUnit → sProp 𝕄) :
    iprop(owns c.tc arg2 fullShare x0 ∗ owns c.tc arg3 fullShare x1 ∗ owns c.tc arg4 fullShare x2 ∗ owns c.tc arg5 fullShare xs
        ∗ (iprop(owns c.tc arg2 fullShare x0 ∗ owns c.tc arg3 fullShare x1 ∗ owns c.tc arg4 fullShare (if cond1_1 i then k1_pay3 (k1_pay2 x0 x1 (if cond1_0 i then k1_pay1 else xs)) else x2) ∗ owns c.tc arg5 fullShare (k1_pay2 x0 x1 (if cond1_0 i then k1_pay1 else xs))) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel owns
  iintro ⟨⟨%f0, %hf0, H0⟩, ⟨%f1, %hf1, H1⟩, ⟨%f2, %hf2, H2⟩, ⟨%fs, %hfs, HS⟩, Hk⟩
  by_cases hc0 : cond1_0 i <;> by_cases hc1 : cond1_1 i
  · exact absurd ⟨hc0, hc1⟩ h
  all_goals
    first | rw [if_pos hc0] | rw [if_neg hc0]
    first | rw [if_pos hc1] | rw [if_neg hc1]
    sl_exec (disch := first | exact hc0 | exact hc1)
    sl_step
    iapply Hk
    isplitl [H0]; swap; isplitl [H1]; swap; isplitl [H2]
    all_goals
      iexists _; isplitr; swap; · iassumption
      ipureintro
      first | (sl_unfold_run_names; rw [read_writes_whole1]; simp only [View.readAt_eq_ld, hf0, hf1, hfs, View.ld_unit_zero (S := S1024x1024) hz1, View.ld_unit_zero (S := S1024x256) hz1, View.readCov_unit_zero (S := S1024x256) _ hz1]) | exact hf0 | exact hf1 | exact hf2

end Cert.Kernel.Hand

end
-- ==== Proof.Bits.F1.lean ====
import proofs.«141517_j31224412242681_1_alg».proof.Proof.Bits.F1.Runs

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of array `w` that point `t` works on, at the array's contents on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: this point's partial product added onto the zero fill at the start of a row block, onto what the point before left otherwise. -/
def acc1 (c : Dev nD) (n : ℕ) : Vec F S1024x256 .f32 :=
  if h : n < cfg1.N then
    k1_pay2 (iblk1 V c 0 ⟨n, h⟩) (iblk1 V c 1 ⟨n, h⟩) (if h0 : n % 8 = 0 then k1_pay1 else acc1 c (n - 1))
  else k1_pay1
termination_by n
decreasing_by omega

theorem acc1_eq (c : Dev nD) (t : Fin cfg1.N) :
    acc1 V c t.val = k1_pay2 (iblk1 V c 0 t) (iblk1 V c 1 t) (if t.val % 8 = 0 then k1_pay1 else acc1 V c (t.val - 1)) := by
  rw [acc1, dif_pos t.isLt]; rfl

/-- The invariant before point `n`: the accumulator holds what the point before left, anything before the first. -/
def PhiS1 (c : Dev nD) (n : ℕ) : sProp 𝕄 :=
  Phi1 c iprop(∃ xs, ⌜n ≠ 0 → xs = acc1 V c (n - 1)⌝ ∗ owns c.tc scM1_0 fullShare xs)

/-- The proof data: each input is left as found, the output is the rectified accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val)
  Φ t := PhiS1 V c t.val
  q _ := fullShare
  owed _ := 0

theorem A_eq1 (c : Dev nD) (w : Fin cfg1.W) : (dat1 V c).A w = V c (Pipeline.arrRef spec1 w) := by
  dsimp only [dat1]

/-- What the body finds of an input at a point is that input's block there. -/
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

/-- What the body must leave of the output: the rectified accumulator at the end of a row block, what it found elsewhere. -/
theorem leaves1_2 (c : Dev nD) (t : Fin cfg1.N) : (dat1 V c).leavesExact 2 t
    = if cond1_1 (grid1.coords t) then owns c.tc (ms1_2 t) fullShare (k1_pay3 (acc1 V c t.val)) else iprop(∃ d, owns c.tc (ms1_2 t) fullShare ((dat1 V c).before 2 t d)) := by
  unfold Dat.leavesExact
  by_cases h : cond1_1 (grid1.coords t)
  · rw [liveAt1_2 t h, if_pos h]; rfl
  · rw [idleAt1_2 t h, noFlush1_2 t h, if_neg h]

/-- What the body leaves in the accumulator at point `t` is `acc1` there. -/
theorem acc1_step (c : Dev nD) (t : Fin cfg1.N) (xs : Vec F S1024x256 .f32) (hxs : t.val ≠ 0 → xs = acc1 V c (t.val - 1)) :
    k1_pay2 (iblk1 V c 0 t) (iblk1 V c 1 t) (if cond1_0 (grid1.coords t) then k1_pay1 else xs) = acc1 V c t.val := by
  rw [acc1_eq]
  by_cases h0 : t.val % 8 = 0
  · rw [if_pos h0, if_pos ((hcond1_0 t).mpr h0)]
  · rw [if_neg h0, if_neg (mt (hcond1_0 t).mp h0), hxs (by omega)]

theorem sound_body1 (c : Dev nD) (t : Fin cfg1.N) :
    iprop((dat1 V c).Φ t.castSucc ∗ (dat1 V c).owesAt () t.castSucc
      ∗ (∃ d, owns c.tc (ms1_0 t) fullShare ((dat1 V c).before 0 t d))
      ∗ (∃ d, owns c.tc (ms1_1 t) fullShare ((dat1 V c).before 1 t d))
      ∗ (∃ d, owns c.tc (ms1_2 t) fullShare ((dat1 V c).before 2 t d)))
    ⊢ wp frame (wpE (defs₀ (F := F)) Variants.none c none) Set.univ (bodyAt1 t) (fun _ =>
      iprop((dat1 V c).Φ t.succ ∗ (dat1 V c).owesAt () t.succ ∗ (dat1 V c).leavesExact 0 t ∗ (dat1 V c).leavesExact 1 t ∗ (dat1 V c).leavesExact 2 t)) := by
  simp only [before1_0, before1_1]
  rw [show (dat1 V c).owesAt () t.succ = (dat1 V c).owesAt () t.castSucc from rfl,
    show (dat1 V c).Φ t.castSucc = PhiS1 V c t.val from rfl, show (dat1 V c).Φ t.succ = PhiS1 V c (t.val + 1) from rfl,
    show (dat1 V c).leavesExact 0 t = owns c.tc (ms1_0 t) fullShare (iblk1 V c 0 t) from by unfold Dat.leavesExact; rw [liveAt1_0 t]; rfl,
    show (dat1 V c).leavesExact 1 t = owns c.tc (ms1_1 t) fullShare (iblk1 V c 1 t) from by unfold Dat.leavesExact; rw [liveAt1_1 t]; rfl,
    leaves1_2]
  unfold PhiS1 Phi1
  iintro ⟨⟨⟨⟨%xs, %hxs, HS⟩, Hr⟩, Hg⟩, Ho, ⟨%d0, H0⟩, ⟨%d1, H1⟩, ⟨%d2, H2⟩⟩
  iapply run1 c (grid1.coords t) _ _ _ _ _ _ _ _ _ _ _ xs Set.univ (fun h => by have := (hcond1_0 t).mp h.1; have := (hcond1_1 t).mp h.2; omega)
  iframe H0 H1 H2 HS
  rw [acc1_step V c t xs hxs]
  by_cases hc1 : cond1_1 (grid1.coords t)
  all_goals
    first | rw [if_pos hc1, if_pos hc1] | rw [if_neg hc1, if_neg hc1]
    iintro ⟨H0, H1, H2, HS⟩
    iframe Hr Hg Ho H0 H1
    isplitl [HS]
    · iexists _; isplitr; swap; · iexact HS
      ipureintro; exact fun _ => rfl
    first | iexact H2 | (iexists d2; iexact H2)

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [PhiA1_eq]
  exact Phi1_mono c (by iintro ⟨%d, H⟩; iexists d; isplitr; · ipureintro; exact fun h => absurd rfl h
                        iexact H)

theorem hout1 (c : Dev nD) : (dat1 V c).Φ (Fin.last cfg1.N) ⊢ (Pipeline.ΦA spec1 c : sProp 𝕄) := by
  rw [PhiA1_eq]
  exact Phi1_mono c (by iintro ⟨%d, -, H⟩; iexists d; iexact H)

end Cert.Kernel.Hand

end
-- ==== Proof.Bits.F2.Run.lean ====
import proofs.«141517_j31224412242681_1_alg».proof.Proof.Gen.Kernel.Launch
import proofs.«141517_j31224412242681_1_alg».proof.Proof.Gen.Kernel.Skeleton
import proofs.«141517_j31224412242681_1_alg».proof.Proof.Gen.Kernel.Points
import Idealize.ShloMosaic.Lib.Pipeline.Value
import Idealize.ShloMosaic.Lib.Ring
import Idealize.ShloMosaic.Lib.Pipeline.TableIdle

noncomputable section

namespace Cert.Kernel.Hand

open Idealize.ShloMosaic Idealize.ShloMosaic.TcCoe
open Idealize.SL.RA Idealize.SL.BI
open Idealize.SL.BI.BIBase Idealize.SL.Sem
open Cert.Kernel.Gen

variable {F : FTy → Type} [FloatOps F]

local notation "𝕄" => MT nD τ sig Unit (Elt F) ℕ (UR sig nD τ) ℕ

-- The two tests of the body: the reduction coordinate is the first, and the last, of its axis.
abbrev cond2 (i : grid2.Coords) : Prop :=
  Scalar.cmpi .ne (Scalar.extui (Scalar.cmpi .eq (BitVec.ofNat 32 (i 1).val) 0#32)) 0#32 = 1#1 ∧ k2_cond2 i = 1#1

-- The reduction axis has one point, so both hold everywhere.
theorem hcond2 : ∀ t : Fin cfg2.N, cond2 (grid2.coords t) :=
  (by decide +kernel : ∀ t : Fin grid2.N, cond2 (grid2.coords t))

theorem liveAt2 : ∀ t : Fin cfg2.N, cfg2.idle 2 (grid2.coords t) = false := by decide +kernel

set_option maxHeartbeats 1000000 in
-- Both tests hold: the accumulator is zeroed, the product of the two blocks is added to it, and the sum is stored in the output block.
theorem sound_kernel2 (c : Dev nD) (E : Set ℕ) (i : grid2.Coords) (hc : cond2 i) (arg2 : Memref sig .tc .vmem S2048x256 .f32) (harg2 : arg2.IsWhole)
    (arg3 : Memref sig .tc .vmem S256x128 .f32) (harg3 : arg3.IsWhole) (arg4 : Memref sig .tc .vmem S2048x128 .f32) (harg4 : arg4.IsWhole)
    (arg5 : Memref sig .tc .vmem S2048x128 .f32) (harg5 : arg5.IsWhole) (x0 : Vec F S2048x256 .f32) (x1 : Vec F S256x128 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (k2_pay2 x0 x1 k2_pay1) ∗ (∃ d, owns (c : Thread nD τ) arg5 fullShare d)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  rw [owns_eq_rep (c : Thread nD τ) arg2, owns_eq_rep (c : Thread nD τ) arg3]; unfold owns
  iintro ⟨H0, H1, ⟨%d2, %f2, -, H2⟩, ⟨%ds0, %fs0, -, HS0⟩, Hk⟩
  sl_exec (disch := first | exact hc.1 | exact hc.2)
  sl_step
  iapply Hk
  iframe H0 H1
  isplitl [H2]
  · iexists _; isplitr
    swap; · iexact H2
    ipureintro
    rw [View.read_writes_eq_canon _ _ _ fun y => ⟨_, List.mem_singleton_self _, View.mem_set_unit_zero (by decide) inb_S2048x128_S2048x128_0_0 y⟩, View.canon_unit_zero (by decide)]
    sl_unfold_words
    rw [View.readCov_cons_toLoadRect, View.readCov_unit_zero _ (by decide), View.readAt_rep, View.readAt_rep]
    exact congrArg₂ (k2_pay2 · · _) (View.ld_unit_zero (S := S2048x256) (by decide) _ x0) (View.ld_unit_zero (S := S256x128) (by decide) _ x1)
  iexists _, _; isplitr
  swap; · iexact HS0
  ipureintro; rfl

end Cert.Kernel.Hand

end
-- ==== Proof.Bits.F2.lean ====
import proofs.«141517_j31224412242681_1_alg».proof.Proof.Bits.F2.Run

noncomputable section

namespace Cert.Kernel.Hand

open Idealize.ShloMosaic Idealize.ShloMosaic.TcCoe
open Idealize.SL.RA Idealize.SL.BI
open Idealize.SL.BI.BIBase Idealize.SL.Sem
open Idealize.ShloMosaic.Pipeline (Dat BodyObligation)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block at point t, read off its array as the region finds it.
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- The body leaves each input block in place and the product of the two blocks in the output block.
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay2 (iblk2 V c 0 t) (iblk2 V c 1 t) k2_pay1
  Φ _ := Pipeline.ΦA spec2 c
  q _ := fullShare
  owed _ := 0

theorem A_eq2 (c : Dev nD) (w : Fin cfg2.W) : (dat2 V c).A w = V c (Pipeline.arrRef spec2 w) := rfl

theorem before2 (c : Dev nD) (t : Fin cfg2.N) :
    (∀ d, (dat2 V c).before 0 t d = iblk2 V c 0 t) ∧ ∀ d, (dat2 V c).before 1 t d = iblk2 V c 1 t := by
  constructor <;> exact fun d => Dat.before_in_eq_fetched _ _ rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2, liveAt2 t]
  show iprop(Pipeline.ΦA spec2 c ∗ _) ⊢ wp _ _ _ (bodyAt2 t) fun _ => iprop(Pipeline.ΦA spec2 c ∗ _)
  unfold Pipeline.ΦA
  simp only [scopedRest2_split, ← owns_whole, (before2 V c t).1, (before2 V c t).2]
  iintro ⟨⟨⟨HS, Hr⟩, Hg⟩, Ho, ⟨%d0, H0⟩, ⟨%d1, H1⟩, ⟨%d2, H2⟩⟩
  iapply (sound_kernel2 c Set.univ _ (hcond2 t) _ _ _ _ _ _ _ _ (iblk2 V c 0 t) (iblk2 V c 1 t) _)
  iframe H0 H1 HS
  isplitl [H2]; · iexists _; iexact H2
  iintro ⟨H0, H1, H2, HS⟩
  iframe HS Hr Hg
  isplitl [Ho]; · iexact Ho
  isplitl [H0]; · iexact H0
  isplitl [H1]; · iexact H1
  iexact H2

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := .rfl

end Cert.Kernel.Hand

end
-- ==== Proof.Bits.F3.Runs.lean ====
import proofs.«141517_j31224412242681_1_alg».proof.Proof.Gen.Kernel.Launch
import proofs.«141517_j31224412242681_1_alg».proof.Proof.Gen.Kernel.Skeleton
import proofs.«141517_j31224412242681_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

theorem live3 : ∀ t : Fin cfg3.N, cfg3.idle 0 (grid3.coords t) = false ∧ cfg3.idle 1 (grid3.coords t) = false
    ∧ (t.val % 8 = 7 → cfg3.idle 2 (grid3.coords t) = false ∧ cfg3.idle 3 (grid3.coords t) = false) := by decide +kernel
theorem idle3 : ∀ t : Fin cfg3.N, t.val % 8 ≠ 7 → (cfg3.idle 2 (grid3.coords t) = true ∧ (cfg3.win 2).flush t = false)
    ∧ cfg3.idle 3 (grid3.coords t) = true ∧ (cfg3.win 3).flush t = false := by decide +kernel

abbrev scM3_0 : Memref sig .tc .vmem S1024x128 .f32 := Memref.whole cc3_scratch0

-- The entry invariant with the accumulator's ownership split off.
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

theorem hz3 : (![0, 0] : Fin 2 → Nat) = fun _ => 0 := funext fun a => by fin_cases a <;> rfl

section Whole
variable (sh : Shape) {off : Fin sh.rank → ℕ} (h : off = fun _ => 0) (inb : ∀ a, off a + sh.size a ≤ sh.size a)
include h

-- The last store through the whole-shape rectangle leaves its payload, whatever was stored before.
theorem read_writes_whole (v : View sig .tc .vmem sh .f32) (f : v.ty.Contents (Elt F)) (w : Vec F sh .f32) (L : List (View.Piece (Elt F) sh .f32)) :
    v.read (Elt F) (v.writes (Elt F) f (⟨Rect.unit off sh.size inb, w⟩ :: L)) = w :=
  (View.read_writes_eq_canon v f _ fun y => ⟨_, List.mem_cons_self .., View.mem_set_unit_zero h inb y⟩).trans (View.canon_cons_unit_zero h inb w L)

-- A load through it after such a store reads the payload.
theorem readCov_whole (v : View sig .tc .vmem sh .f32) (w : Vec F sh .f32) (L : List (View.Piece (Elt F) sh .f32)) :
    v.readCov (⟨Rect.unit off sh.size inb, w⟩ :: L) (Rect.unit off sh.size inb).toLoadRect = w := by
  rw [View.readCov_eq_canon_ld _ _ _ fun y => ⟨_, List.mem_cons_self .., View.mem_set_unit_zero h inb y⟩, View.canon_cons_unit_zero h, View.ld_unit_zero h]

-- A load through it of a whole memref reads the memref's contents.
theorem readAt_whole {m : Memref sig .tc .vmem sh .f32} (hm : m.IsWhole) (X : Vec F sh .f32) :
    m.view.readAt (Elt F) (Rect.unit off sh.size inb).toLoadRect (hm.unread X) = X := by
  rw [View.readAt_eq_ld, hm.read_unread, View.ld_unit_zero h]

end Whole

variable (c : Dev nD) (i : grid3.Coords) {arg2 : Memref sig .tc .vmem S1024x1024 .f32} (harg2 : arg2.IsWhole) {arg3 : Memref sig .tc .vmem S1024x128 .f32} (harg3 : arg3.IsWhole)
  {arg4 : Memref sig .tc .vmem S1024x64 .f32} (harg4 : arg4.IsWhole) {arg5 : Memref sig .tc .vmem S1024x64 .f32} (harg5 : arg5.IsWhole) {arg6 : Memref sig .tc .vmem S1024x128 .f32} (harg6 : arg6.IsWhole)
  (x0 : Vec F S1024x1024 .f32) (x1 xs : Vec F S1024x128 .f32) (xi2 xi3 : Vec F S1024x64 .f32)

-- What the body leaves in the accumulator: the product of the two blocks added to what it held, or to zero after a reset.
def acc3_step : Vec F S1024x128 .f32 := k3_pay2 x0 x1 (if cond3_0 i then k3_pay1 else xs)

set_option maxHeartbeats 1000000 in
-- The body on whole memrefs: the inputs stay, the accumulator takes its step, and where the second branch is taken the outputs take its two column halves.
theorem run3 (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs
        ∗ (iprop(owns (c : Thread nD τ) arg2 fullShare x0 ∗ owns (c : Thread nD τ) arg3 fullShare x1
            ∗ owns (c : Thread nD τ) arg4 fullShare (if cond3_1 i then k3_pay3 (acc3_step i x0 x1 xs) else xi2)
            ∗ owns (c : Thread nD τ) arg5 fullShare (if cond3_1 i then k3_pay4 (acc3_step i x0 x1 xs) else xi3)
            ∗ owns (c : Thread nD τ) arg6 fullShare (acc3_step i x0 x1 xs)) -∗ K ⟨⟩))
      ⊢ wp frame (wpE (defs₀ (F := F)) Variants.none c none) E (cc3__matmul_split_kernel i arg2 harg2 arg3 harg3 arg4 harg4 arg5 harg5 arg6 harg6) K := by
  simp only [cc3__matmul_split_kernel_eq_skeleton]; unfold cc3__matmul_split_kernel_skel acc3_step owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hfs0
  by_cases hc0 : cond3_0 i <;> by_cases hc1 : cond3_1 i <;>
    (first | rw [if_pos hc0] | rw [if_neg hc0]) <;> (first | rw [if_pos hc1, if_pos hc1] | rw [if_neg hc1, if_neg hc1]) <;>
  · sl_exec (disch := first | exact hc0 | exact hc1)
    sl_step
    (try sl_unfold_run_names)
    simp only [readCov_whole S1024x128 hz3, readAt_whole S1024x1024 hz3, readAt_whole S1024x128 hz3]
    iapply Hk
    isplitl [H0]; · iexists _; isplitr; swap; · iexact H0
                    ipureintro; simp only [Memref.IsWhole.read_unread, read_writes_whole S1024x64 hz3, read_writes_whole S1024x128 hz3]
    isplitl [H1]; · iexists _; isplitr; swap; · iexact H1
                    ipureintro; simp only [Memref.IsWhole.read_unread, read_writes_whole S1024x64 hz3, read_writes_whole S1024x128 hz3]
    isplitl [H2]; · iexists _; isplitr; swap; · iexact H2
                    ipureintro; simp only [Memref.IsWhole.read_unread, read_writes_whole S1024x64 hz3, read_writes_whole S1024x128 hz3]
    isplitl [H3]; · iexists _; isplitr; swap; · iexact H3
                    ipureintro; simp only [Memref.IsWhole.read_unread, read_writes_whole S1024x64 hz3, read_writes_whole S1024x128 hz3]
    iexists _; isplitr; swap; · iexact HS0
    ipureintro; simp only [Memref.IsWhole.read_unread, read_writes_whole S1024x64 hz3, read_writes_whole S1024x128 hz3]

end Cert.Kernel.Hand

end
-- ==== Proof.Bits.F3.lean ====
import proofs.«141517_j31224412242681_1_alg».proof.Proof.Bits.F3.Runs

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off its array as the region finds it.
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- The accumulator before point `n`: the body's step at point `n - 1` from what it held before that point.
def acc3 (c : Dev nD) : ℕ → Vec F S1024x128 .f32
  | 0 => k3_pay1
  | n + 1 => if h : n < cfg3.N then acc3_step (grid3.coords ⟨n, h⟩) (iblk3 V c 0 ⟨n, h⟩) (iblk3 V c 1 ⟨n, h⟩) (acc3 c n) else k3_pay1

-- At the first point the step resets the accumulator, so what it held does not matter.
theorem acc3_succ (c : Dev nD) (t : Fin cfg3.N) (xs : Vec F S1024x128 .f32) (hxs : t.val ≠ 0 → xs = acc3 V c t.val) :
    acc3_step (grid3.coords t) (iblk3 V c 0 t) (iblk3 V c 1 t) xs = acc3 V c (t.val + 1) := by
  refine .trans ?_ (dif_pos t.isLt).symm
  unfold acc3_step
  by_cases h : cond3_0 (grid3.coords t)
  · rw [if_pos h, if_pos h]
  · rw [hxs fun h' => h ((hcond3_0 t).mpr (by rw [h']))]

def after3 (c : Dev nD) (w : Fin cfg3.W) (t : Fin cfg3.N) : (cfg3.win w).block.Idx → Elt F (cfg3.win w).elt :=
  match w with
  | ⟨0, _⟩ => iblk3 V c 0 t
  | ⟨1, _⟩ => iblk3 V c 1 t
  | ⟨2, _⟩ => k3_pay3 (acc3 V c (t.val + 1))
  | ⟨3, _⟩ => k3_pay4 (acc3 V c (t.val + 1))

-- Before point `t` the accumulator holds `acc3 t`, before the first point anything.
def Phi3 (c : Dev nD) (t : Fin (cfg3.N + 1)) : sProp 𝕄 :=
  iprop(iprop(iprop(∃ d, ⌜t.val ≠ 0 → d = acc3 V c t.val⌝ ∗ owns (c : Thread nD τ) scM3_0 fullShare d)
      ∗ Pipeline.scopedRestBut (Ix := Unit) (Name := ℕ) (U := UR sig nD τ) (Lvl := ℕ) (Val := Elt F) spec3 c [cc3_scratch0]) ∗ (∃ r, prngReg c r))

def dat3 (c : Dev nD) : Dat τ (Elt F) Unit ℕ (UR sig nD τ) ℕ cfg3 c where
  A w := V c (Pipeline.arrRef spec3 w)
  after := after3 V c
  Φ := Phi3 V c
  q _ := fullShare
  owed _ := 0

theorem A_eq3 (c : Dev nD) (w : Fin cfg3.W) : (dat3 V c).A w = V c (Pipeline.arrRef spec3 w) := by
  dsimp only [dat3]

-- What the body reads of either input at point `t` is that point's block.
theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

section Leaves
variable {c : Dev nD} (dat : Dat τ (Elt F) Unit ℕ (UR sig nD τ) ℕ cfg3 c) (w : Fin cfg3.W) (t : Fin cfg3.N)

theorem leaves_live (h : cfg3.idle w (grid3.coords t) = false) :
    dat.leavesExact w t = owns (c : Thread nD τ) ((cfg3.win w).stage (cfg3.slots t w)) fullShare (dat.after w t) := by
  unfold Dat.leavesExact; rw [h]

theorem leaves_out (d) (hl : t.val % 8 = 7 → cfg3.idle w (grid3.coords t) = false)
    (hi : t.val % 8 ≠ 7 → cfg3.idle w (grid3.coords t) = true ∧ (cfg3.win w).flush t = false) :
    owns (c : Thread nD τ) ((cfg3.win w).stage (cfg3.slots t w)) fullShare (if cond3_1 (grid3.coords t) then dat.after w t else dat.before w t d) ⊢ dat.leavesExact w t := by
  by_cases h : cond3_1 (grid3.coords t)
  · rw [if_pos h, leaves_live dat w t (hl ((hcond3_1 t).mp h))]
  · have hi := hi (mt (hcond3_1 t).mpr h)
    rw [if_neg h, dat.leavesExact_idle w t hi.1 hi.2]; iintro H; iexists d; iexact H

end Leaves

def bodyPre3 (c : Dev nD) (t : Fin cfg3.N) (w : Fin cfg3.W) : sProp 𝕄 :=
  iprop(∃ d, owns (c : Thread nD τ) ((cfg3.win w).stage (cfg3.slots t w)) fullShare ((dat3 V c).before w t d))

-- The body at any point takes the accumulator from `acc3 t` to `acc3 (t + 1)`.
theorem sound_body3 (c : Dev nD) (t : Fin cfg3.N) :
    iprop((dat3 V c).Φ t.castSucc ∗ (dat3 V c).owesAt () t.castSucc ∗ bodyPre3 V c t 0 ∗ bodyPre3 V c t 1 ∗ bodyPre3 V c t 2 ∗ bodyPre3 V c t 3)
      ⊢ wp frame (wpE (defs₀ (F := F)) Variants.none c none) Set.univ (bodyAt3 t) (fun _ =>
        iprop((dat3 V c).Φ t.succ ∗ (dat3 V c).owesAt () t.succ ∗ (dat3 V c).leavesExact 0 t ∗ (dat3 V c).leavesExact 1 t ∗ (dat3 V c).leavesExact 2 t ∗ (dat3 V c).leavesExact 3 t)) := by
  unfold bodyPre3 bodyAt3
  simp only [before3_0, before3_1]
  rw [show (dat3 V c).owesAt () t.succ = (dat3 V c).owesAt () t.castSucc from rfl, show (dat3 V c).Φ = Phi3 V c from rfl,
    leaves_live _ 0 t (live3 t).1, leaves_live _ 1 t (live3 t).2.1]
  unfold Phi3
  iintro ⟨⟨⟨⟨%xs, %hxs, HS⟩, HR⟩, Hg⟩, Ho, ⟨%d0, H0⟩, ⟨%d1, H1⟩, ⟨%d2, H2⟩, ⟨%d3, H3⟩⟩
  iapply run3 c (grid3.coords t) _ _ _ _ _ (iblk3 V c 0 t) (iblk3 V c 1 t) xs _ _ Set.univ
  isplitl [H0]; · iexact H0
  isplitl [H1]; · iexact H1
  isplitl [H2]; · iexact H2
  isplitl [H3]; · iexact H3
  isplitl [HS]; · iexact HS
  rw [acc3_succ V c t xs hxs]
  iintro ⟨H0, H1, H2, H3, HS⟩
  isplitl [HS HR Hg]
  · isplitl [HS HR]
    · isplitl [HS]
      · iexists _; isplitr; swap; · iexact HS
        ipureintro; exact fun _ => rfl
      iexact HR
    iexact Hg
  isplitl [Ho]; · iexact Ho
  isplitl [H0]; · iexact H0
  isplitl [H1]; · iexact H1
  isplitl [H2]; · iapply leaves_out (dat3 V c) 2 t d2 (fun h => ((live3 t).2.2 h).1) (fun h => (idle3 t h).1)
                  iexact H2
  iapply leaves_out (dat3 V c) 3 t d3 (fun h => ((live3 t).2.2 h).2) (fun h => (idle3 t h).2)
  iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [PhiA3_eq]; show _ ⊢ Phi3 V c 0; unfold Phi3
  iintro ⟨⟨⟨%d, HS⟩, HR⟩, Hg⟩
  isplitl [HS HR]
  · isplitl [HS]
    · iexists d; isplitr; · ipureintro; exact fun h => absurd rfl h
      iexact HS
    iexact HR
  iexact Hg

theorem hout3 (c : Dev nD) : (dat3 V c).Φ (Fin.last cfg3.N) ⊢ (Pipeline.ΦA spec3 c : sProp 𝕄) := by
  rw [PhiA3_eq]; show Phi3 V c _ ⊢ _; unfold Phi3
  iintro ⟨⟨⟨%d, -, HS⟩, HR⟩, Hg⟩
  isplitl [HS HR]
  · isplitl [HS]
    · iexists d; iexact HS
    iexact HR
  iexact Hg

end Cert.Kernel.Hand

end
-- ==== Proof.Bits.F4.lean ====
import proofs.«141517_j31224412242681_1_alg».proof.Proof.Gen.Kernel.Launch
import proofs.«141517_j31224412242681_1_alg».proof.Proof.Gen.Kernel.Skeleton
import proofs.«141517_j31224412242681_1_alg».proof.Proof.Gen.Kernel.Points
import Idealize.ShloMosaic.Lib.Pipeline.Value
import Idealize.ShloMosaic.Lib.Ring
import Idealize.ShloMosaic.Lib.Pipeline.TableIdle

noncomputable section

namespace Cert.Kernel.Hand

open Idealize.ShloMosaic Idealize.ShloMosaic.TcCoe
open Idealize.SL.RA Idealize.SL.BI
open Idealize.SL.BI.BIBase Idealize.SL.BI.Laws Idealize.SL.Sem
open Idealize.ShloMosaic.Pipeline (Dat BodyObligation)
open Cert.Kernel.Gen

variable {F : FTy → Type} [FloatOps F]

local notation "𝕄" => MT nD τ sig Unit (Elt F) ℕ (UR sig nD τ) ℕ

theorem zeros4 : (![0, 0] : Fin 2 → Nat) = fun _ => 0 := funext fun a => by fin_cases a <;> rfl

set_option maxHeartbeats 1000000 in
-- The body loads its two row blocks whole and stores their product whole.
theorem sound_kernel4 (c : Dev nD) (E : Set ℕ) (i : grid4.Coords) (arg2 : Memref sig .tc .vmem S2048x64 .f32) (harg2 : arg2.IsWhole)
    (arg3 : Memref sig .tc .vmem S2048x64 .f32) (harg3 : arg3.IsWhole) (arg4 : Memref sig .tc .vmem S2048x2048 .f32) (harg4 : arg4.IsWhole)
    (zi zj : Vec F S2048x64 .f32) (K : PUnit → sProp 𝕄) :
    iprop(owns (c : Thread nD τ) arg2 fullShare zi ∗ owns (c : Thread nD τ) arg3 fullShare zj ∗ (∃ d, owns (c : Thread nD τ) arg4 fullShare d)
        ∗ (iprop(owns (c : Thread nD τ) arg2 fullShare zi ∗ owns (c : Thread nD τ) arg3 fullShare zj ∗ owns (c : Thread nD τ) arg4 fullShare (k4_pay1 zi zj)) -∗ K ⟨⟩))
      ⊢ wp frame (wpE (defs₀ (F := F)) Variants.none c none) E (cc4__recon_kernel i arg2 harg2 arg3 harg3 arg4 harg4) K := by
  simp only [cc4__recon_kernel_eq_skeleton]; unfold cc4__recon_kernel_skel
  rw [owns_eq_rep (c : Thread nD τ) arg2, owns_eq_rep (c : Thread nD τ) arg3]; unfold owns
  iintro ⟨H0, H1, ⟨%d2, %f2, -, H2⟩, Hk⟩
  sl_exec
  sl_step
  iapply Hk
  iframe H0 H1
  iexists _; isplitr
  swap; · iexact H2
  ipureintro
  rw [View.read_writes_eq_canon _ _ _ fun y => ⟨_, List.mem_singleton_self _, View.mem_set_unit_zero zeros4 inb_S2048x2048_S2048x2048_0_0 y⟩,
    View.canon_unit_zero zeros4, View.readAt_rep, View.readAt_rep]
  exact congrArg₂ k4_pay1 (View.ld_unit_zero (S := S2048x64) zeros4 _ zi) (View.ld_unit_zero (S := S2048x64) zeros4 _ zj)

variable (V : (c : Dev nD) → (b : Ref sig .tc) → Buf (Elt F) ((c : Thread nD τ).loc b))

-- Window w's block at point t, read off its array as the region finds it.
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

-- The one array behind the two input windows is held at its two half shares.
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay1 (iblk4 V c 0 t) (iblk4 V c 1 t)
  Φ _ := Pipeline.ΦA spec4 c
  q w := match w with
    | ⟨0, _⟩ => fullShare.left
    | ⟨1, _⟩ => fullShare.right
    | ⟨2, _⟩ => fullShare
  owed _ := 0

theorem before4 (c : Dev nD) (t : Fin cfg4.N) :
    (∀ d, (dat4 V c).before 0 t d = iblk4 V c 0 t) ∧ ∀ d, (dat4 V c).before 1 t d = iblk4 V c 1 t := by
  constructor <;> exact fun d => Dat.before_in_eq_fetched _ _ rfl (fun _ => rfl) (fun _ _ _ => rfl) (fun _ => rfl) t d

theorem body_obligation4 (c : Dev nD) : BodyObligation (dat4 (F := F) V c) (defs₀ (F := F)) Variants.none () Set.univ := fun t => by
  rw [bigSep_W4, bigSep_W4]
  simp only [(before4 V c t).1, (before4 V c t).2]
  rw [show (dat4 V c).Φ t.succ = (dat4 V c).Φ t.castSucc from rfl]
  show _ ⊢ wp _ _ _ (bodyAt4 t) _
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  iframe H0 H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem hin4 (c : Dev nD) : (Pipeline.ΦA spec4 c : sProp 𝕄) ⊢ (dat4 V c).Φ 0 := .rfl

theorem hout4 (c : Dev nD) : (dat4 V c).Φ (Fin.last cfg4.N) ⊢ (Pipeline.ΦA spec4 c : sProp 𝕄) := .rfl

def exitV4 (c : Dev nD) : (b : Ref sig .tc) → Buf (Elt F) ((c : Thread nD τ).loc b) :=
  Function.update (V c) main_v5 ((dat4 V c).arrAt 2 cfg4.N)

-- A buffer held whole is held at its two half shares.
theorem halves (c : Dev nD) (f : Buf (Elt F) ((c : Thread nD τ).loc main_v4_0)) :
    (((c : Thread nD τ).loc main_v4_0) ↦{fullShare} f : sProp 𝕄)
      ⊣⊢ iprop((((c : Thread nD τ).loc main_v4_0) ↦{fullShare.left} f) ∗ (((c : Thread nD τ).loc main_v4_0) ↦{fullShare.right} f)) :=
  pointsTo_share (PosShare.mem_left_op_right fullShare)

-- The buffers behind the region's arrays, at contents W, are its arrays: the one two windows read as its two halves.
theorem arrays4 (c : Dev nD) (W : (b : Ref sig .tc) → Buf (Elt F) ((c : Thread nD τ).loc b)) :
    (Pipeline.arrBufs (cfgs 4).spec c W : sProp 𝕄) ⊣⊢ (dat4 V c).arrays fun w => W (Pipeline.arrRef spec4 w) := by
  classical
  unfold Pipeline.arrBufs Dat.arrays
  rw [show Finset.univ.image (Pipeline.arrRef (cfgs 4).spec) = {main_v4_0, main_v5} from by decide, bigSep_W4,
    bigSep_insert (by decide), bigSep_singleton, (arr_whole4 0).set_eq_univ, (arr_whole4 2).set_eq_univ]
  exact (sep_congr_left (halves c _)).trans sep_assoc

theorem entry4 (c : Dev nD) : (unscopedBufs c (V c) : sProp 𝕄) ⊢ iprop((dat4 V c).arrays ((dat4 V c).arrAt · 0) ∗ Pipeline.unscopedRest spec4 c (V c)) := by
  rw [Pipeline.unscopedBufs_split₀ cfgs 4 winFacts₀4.arr_unscoped c (V c)]
  exact sep_mono (arrays4 V c (V c)).1 .rfl

theorem exit4 (c : Dev nD) : iprop((dat4 V c).arrays ((dat4 V c).arrAt · cfg4.N) ∗ Pipeline.unscopedRest spec4 c (V c)) ⊢ (unscopedBufs c (exitV4 V c) : sProp 𝕄) := by
  rw [Pipeline.unscopedBufs_split₀ cfgs 4 winFacts₀4.arr_unscoped c (exitV4 V c)]
  refine sep_mono (.trans (.of_eq (congrArg _ (funext fun w => ?_))) (arrays4 V c (exitV4 V c)).2) (.of_eq ?_)
  · match w with
    | ⟨0, _⟩ => exact ((dat4 V c).arrAt_in 0 rfl _).trans (Function.update_of_ne (show main_v4_0 ≠ main_v5 by decide) _ _).symm
    | ⟨1, _⟩ => exact ((dat4 V c).arrAt_in 1 rfl _).trans (Function.update_of_ne (show main_v4_0 ≠ main_v5 by decide) _ _).symm
    | ⟨2, _⟩ => exact (Function.update_self main_v5 _ (V c)).symm
  · unfold Pipeline.unscopedRest
    exact bigSep_congr fun b hb => by
      have hb5 : b ≠ main_v5 := fun e => (Finset.mem_sdiff.mp hb).2 (e ▸ (by decide))
      rw [show exitV4 V c b = V c b from Function.update_of_ne hb5 _ _]

end Cert.Kernel.Hand

end
-- ==== Proof.Bits.Chain.lean ====
import proofs.«141517_j31224412242681_1_alg».proof.Proof.Bits.F0
import proofs.«141517_j31224412242681_1_alg».proof.Proof.Bits.F1
import proofs.«141517_j31224412242681_1_alg».proof.Proof.Bits.F2
import proofs.«141517_j31224412242681_1_alg».proof.Proof.Bits.F3
import proofs.«141517_j31224412242681_1_alg».proof.Proof.Bits.F4
import proofs.«141517_j31224412242681_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- What core `c` holds between two items of @main when its buffers are at `W c`. -/
abbrev St (W : Dev nD → Valuation τ sig (Elt F)) (c : Dev nD) : sProp 𝕄 :=
  iprop(StableHlo.held (c : Thread nD τ) (Pipeline.ucRefs τ sig) (W c) ∗ R c)
/-- Buffer contents read at the TensorCore's references. -/
abbrev atTc (W : Dev nD → Valuation τ sig (Elt F)) : (c : Dev nD) → (b : Ref sig .tc) → Buf (Elt F) ((c : Thread nD τ).loc b) :=
  fun c b => W c b

section Next

variable {cfg : Cfg sig Λ₀} (d : (c : Dev nD) → Dat τ (Elt F) Unit ℕ (UR sig nD τ) ℕ cfg c) (W : Dev nD → Valuation τ sig (Elt F))

/-- The buffers after a region entered at `W`: each window's array at its final contents, every other buffer as entered. -/
def next (c : Dev nD) : Valuation τ sig (Elt F) := Pipeline.withArrays cfg.spec c (W c) fun w => (d c).arrAt w cfg.N

variable (hinj : Function.Injective (Pipeline.arrRef cfg.spec))
include hinj

theorem next_arr (c : Dev nD) (w : Fin cfg.W) : next d W c (Proc.devRef .tc (Pipeline.arrRef cfg.spec w)) = (d c).arrAt w cfg.N :=
  Pipeline.withArrays_arr _ hinj c _ _ w

/-- A buffer outside a list holding every output window's array leaves the region as it entered. -/
theorem next_keep (hA : ∀ c w, (d c).A w = atTc W c (Pipeline.arrRef cfg.spec w)) (outs : List (Ref sig .tc))
    (hout : ∀ w, (cfg.win w).isOut = true → Pipeline.arrRef cfg.spec w ∈ outs) (c : Dev nD) (b : Ref sig .tc) (hb : b ∉ outs) :
    next d W c (Proc.devRef .tc b) = W c (Proc.devRef .tc b) := by
  by_cases h : ∃ w, Pipeline.arrRef cfg.spec w = b
  · obtain ⟨w, rfl⟩ := h
    have hw : (cfg.win w).isOut = false := by
      cases e : (cfg.win w).isOut
      · rfl
      · exact absurd (hout w e) hb
    exact (next_arr d W hinj c w).trans (((d c).arrAt_in w hw _).trans (hA c w))
  · exact Pipeline.withArrays_of_ne _ c _ _ b fun w e => h ⟨w, e⟩

end Next

section Region

variable (pd : (p : Fin 5) → (c : Dev nD) → Dat τ (Elt F) Unit ℕ (UR sig nD τ) ℕ (cfgs p) c) (p : Fin 5)
  (V V' : Dev nD → Valuation τ sig (Elt F))

set_option backward.isDefEq.respectTransparency.types false in
/-- A region as an item of the run from `V` to `V'`, given how its arrays split off the buffers at `V` and join them at `V'`. -/
def regionOf (win : Pipeline.WinFacts₀ (cfgs p).spec)
    (block_pos : ∀ w : Fin (cfgs p).W, 0 < ((cfgs p).spec w).block.numel)
    (stage_whole : ∀ (w : Fin (cfgs p).W) (s : Fin ((cfgs p).spec w).nbuf),
      (((cfgs p).spec w).stage s).IsWhole)
    (hbody : ∀ c, Pipeline.BodyObligationLoose (pd p c) defs₀ 𝒱₀ () Set.univ) (howed : ∀ c t, (pd p c).owed t = 0)
    (hrec : ∀ c, (pd p c).recorded 0 = Set.univ)
    (hsplit : ∀ c, (unscopedBufs c (atTc V c) : sProp 𝕄)
      ⊢ iprop((pd p c).arrays ((pd p c).arrAt · 0) ∗ Pipeline.unscopedRest (cfgs p).spec c (atTc V c)))
    (hjoin : ∀ c, iprop((pd p c).arrays ((pd p c).arrAt · (cfgs p).N)
        ∗ Pipeline.unscopedRest (cfgs p).spec c (atTc V c)) ⊢ (unscopedBufs c (atTc V' c) : sProp 𝕄))
    (hin : ∀ c, (Pipeline.ΦA (cfgs p).spec c : sProp 𝕄) ⊢ (pd p c).Φ 0)
    (hout : ∀ c, (pd p c).Φ (Fin.last _) ⊢ (Pipeline.ΦA (cfgs p).spec c : sProp 𝕄)) :
    Pipeline.RegionSeg (pcfgs (F := F)) adm pd () defs₀ 𝒱₀ L lv p where
  win := win
  block_pos := block_pos
  stage_whole := stage_whole
  K := PEmpty
  osem k := k.elim
  ho := Pipeline.OwnSemFacts.none _
  hbody := hbody
  hwaits := Pipeline.hwaits_of_owed_zero _ _ _ _ L lv p howed
  pre := St V
  post := St V'
  X c := iprop(∃ r, prngReg c r)
  Y c := iprop(∃ r, prngReg c r)
  Z c := Pipeline.unscopedRest (Ix := Unit) (Name := ℕ) (U := UR sig nD τ) (Lvl := ℕ) (cfgs p).spec c (atTc V c)
  hentry c := by
    rw [Pipeline.ownSems0_none]
    have hs := hsplit c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c]; trivial)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hj := hjoin c
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
/-- The same for a region whose windows read distinct arrays: it is left at `next (pd p) V`. -/
def regionOfLaunch (lf : Pipeline.LaunchFacts (nD := nD) (τ := τ) cfgs p)
    (hbody : ∀ c, Pipeline.BodyObligationLoose (pd p c) defs₀ 𝒱₀ () Set.univ)
    (hq : ∀ c w, (pd p c).q w = fullShare) (howed : ∀ c t, (pd p c).owed t = 0) (hrec : ∀ c, (pd p c).recorded 0 = Set.univ)
    (hA : ∀ c w, (pd p c).A w = atTc V c (Pipeline.arrRef (cfgs p).spec w))
    (hin : ∀ c, (Pipeline.ΦA (cfgs p).spec c : sProp 𝕄) ⊢ (pd p c).Φ 0)
    (hout : ∀ c, (pd p c).Φ (Fin.last _) ⊢ (Pipeline.ΦA (cfgs p).spec c : sProp 𝕄)) :
    Pipeline.RegionSeg (pcfgs (F := F)) adm pd () defs₀ 𝒱₀ L lv p :=
  regionOf pd p V (next (pd p) V) lf.win.to₀ lf.block_pos lf.stage_whole hbody howed hrec
    (fun c => Pipeline.arrays_of_unscopedBufs (p := p) (pcfgs (F := F)) adm pd lf.win lf.arr_whole c ((pd p c).share_full (hq c)) (atTc V c) (hA c))
    (fun c => Pipeline.unscopedBufs_of_arrays (p := p) (pcfgs (F := F)) adm (Ix := Unit) (Name := ℕ) (U := UR sig nD τ) (Lvl := ℕ)
      lf.win lf.arr_whole c pd ((pd p c).share_full (hq c)) (atTc V c) (atTc (next (pd p) V) c) _
      (fun w => (next_arr (pd p) V lf.win.arr_inj c w).symm)
      (fun b hb => Pipeline.withArrays_of_ne _ c _ _ b fun w e => hb (Finset.mem_image.mpr ⟨w, Finset.mem_univ _, e⟩)))
    hin hout

end Region

variable (m : (ℓ : Loc nD τ sig) → Buf (Elt F) ℓ) (ρ : Dev nD → PrngReg)

/-! The buffer contents between the six items of @main, a fold from the launch memory: after `x · W_hidden`, after the hidden
layer, after packing `[W_mean | W_logstd]`, after the projection, after the two latent heads, after the Gram matrix. -/

abbrev wLaunch : Dev nD → Valuation τ sig (Elt F) := fun c b => (s₀ m ρ).mem ((c : Dev nD), b)
def wHid : Dev nD → Valuation τ sig (Elt F) := next (dat0 (atTc (wLaunch m ρ))) (wLaunch m ρ)
def wAct : Dev nD → Valuation τ sig (Elt F) := next (dat1 (atTc (wHid m ρ))) (wHid m ρ)
abbrev wCat : Dev nD → Valuation τ sig (Elt F) := fun c => StableHlo.after hostOps2 (wAct m ρ c)
def wProj : Dev nD → Valuation τ sig (Elt F) := next (dat2 (atTc (wCat m ρ))) (wCat m ρ)
def wLat : Dev nD → Valuation τ sig (Elt F) := next (dat3 (atTc (wProj m ρ))) (wProj m ρ)
def wGram (c : Dev nD) : Valuation τ sig (Elt F) :=
  Function.update (wLat m ρ c) (Proc.devRef .tc main_v5) ((dat4 (atTc (wLat m ρ)) c).arrAt 2 cfg4.N)

theorem wGram_eq_exit (c : Dev nD) : atTc (wGram m ρ) c = exitV4 (atTc (wLat m ρ)) c := by
  funext b
  unfold wGram exitV4
  by_cases h : b = main_v5
  · subst h
    exact (Function.update_self _ _ _).trans
      (Function.update_self (β := fun b : Ref sig .tc => Buf (Elt F) ((c : Thread nD τ).loc b)) main_v5 _ (atTc (wLat m ρ) c)).symm
  · exact (Function.update_of_ne (StableHlo.devRef_ne_of_ne h) _ _).trans
      (Function.update_of_ne (β := fun b : Ref sig .tc => Buf (Elt F) ((c : Thread nD τ).loc b)) h _ (atTc (wLat m ρ) c)).symm

/-- Every buffer an item may write. -/
abbrev written : List (Ref sig .tc) := [main_v0, main_v1, main_v2, main_v3, main_v4_0, main_v4_1, main_v5]

section Kept

variable (c : Dev nD) (b : Ref sig .tc) (hb : b ∉ written)
include hb

/-! A buffer no item writes (an argument, above all) holds its launch contents at every boundary. -/
theorem wHid_kept : wHid m ρ c b = m ((c : Thread nD τ).loc b) :=
  next_keep _ _ launch0.win.arr_inj (A_eq0 _) written (by decide) c b hb
theorem wAct_kept : wAct m ρ c b = m ((c : Thread nD τ).loc b) :=
  (next_keep _ _ launch1.win.arr_inj (A_eq1 _) written (by decide) c b hb).trans (wHid_kept m ρ c b hb)
theorem wCat_kept : wCat m ρ c b = m ((c : Thread nD τ).loc b) :=
  (StableHlo.after_of_writes_sub hostOps2 _ hostOps2_writes fun h => hb ((by decide : ∀ x ∈ hostOps2_W, x ∈ written) b h)).trans
    (wAct_kept m ρ c b hb)
theorem wProj_kept : wProj m ρ c b = m ((c : Thread nD τ).loc b) :=
  (next_keep _ _ launch2.win.arr_inj (A_eq2 _) written (by decide) c b hb).trans (wCat_kept m ρ c b hb)
theorem wLat_kept : wLat m ρ c b = m ((c : Thread nD τ).loc b) :=
  (next_keep _ _ launch3.win.arr_inj (A_eq3 _) written (by decide) c b hb).trans (wProj_kept m ρ c b hb)
theorem wGram_kept : wGram m ρ c b = m ((c : Thread nD τ).loc b) :=
  (Function.update_of_ne (StableHlo.devRef_ne_of_ne (show b ≠ main_v5 from fun e => hb (e ▸ (by decide : main_v5 ∈ written)))) _ _).trans (wLat_kept m ρ c b hb)

end Kept

/-! The regions and @main as the run of its items. -/

def pdats : (p : Fin 5) → (c : Dev nD) → Dat τ (Elt F) Unit ℕ (UR sig nD τ) ℕ (cfgs p) c
  | ⟨0, _⟩ => dat0 (atTc (wLaunch m ρ))
  | ⟨1, _⟩ => dat1 (atTc (wHid m ρ))
  | ⟨2, _⟩ => dat2 (atTc (wCat m ρ))
  | ⟨3, _⟩ => dat3 (atTc (wProj m ρ))
  | ⟨4, _⟩ => dat4 (atTc (wLat m ρ))

set_option backward.isDefEq.respectTransparency.types false in
abbrev segs : List (Pipeline.Seg (pcfgs (F := F)) adm (pdats m ρ) () defs₀ 𝒱₀ L lv) :=
  [ .region (regionOfLaunch (pdats m ρ) 0 (wLaunch m ρ) launch0 (fun c => (body_obligation0 _ c).loose) (fun _ _ => rfl) (fun _ _ => rfl) (fun _ => rfl)
      (A_eq0 _) (hin0 _) (hout0 _)),
    .region (regionOfLaunch (pdats m ρ) 1 (wHid m ρ) launch1 (fun c => (body_obligation1 _ c).loose) (fun _ _ => rfl) (fun _ _ => rfl) (fun _ => rfl)
      (A_eq1 _) (hin1 _) (hout1 _)),
    .host (Pipeline.HostSeg.ofOps _ _ _ _ _ (Pipeline.ucRefs τ sig) hostOps2
      (fun op h => Pipeline.sub_ucRefs op ((List.forall_iff_forall_mem.mp hostOps2_sub) op h))
      (fun op h => (List.forall_iff_forall_mem.mp hostOps2_fresh) op h) (wAct m ρ) R),
    .region (regionOfLaunch (pdats m ρ) 2 (wCat m ρ) launch2 (fun c => (body_obligation2 _ c).loose) (fun _ _ => rfl) (fun _ _ => rfl) (fun _ => rfl)
      (A_eq2 _) (hin2 _) (hout2 _)),
    .region (regionOfLaunch (pdats m ρ) 3 (wProj m ρ) launch3 (fun c => (body_obligation3 _ c).loose) (fun _ _ => rfl) (fun _ _ => rfl) (fun _ => rfl)
      (A_eq3 _) (hin3 _) (hout3 _)),
    .region (regionOf (pdats m ρ) 4 (wLat m ρ) (wGram m ρ) winFacts₀4 block_pos4 stage_whole4 (fun c => (body_obligation4 _ c).loose)
      (fun _ _ => rfl) (fun _ => rfl) (entry4 _) (fun c => by rw [wGram_eq_exit]; exact exit4 _ c) (hin4 _) (hout4 _)) ]

theorem main_run (c : Dev nD) : main (F := F) c = Pipeline.Seg.run (segs m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair run of @main ends, nothing faulting, with the results at the last boundary's contents and each argument as launched. -/
theorem run_named : θ_run defs (onTc (τ := τ) (main (F := F))) ⟨m, fun _ => 0, ρ⟩ (fun r => ∀ c : Dev nD,
      r.2.mem ((c.tc : Thread nD τ).loc main_v5) = wGram m ρ c main_v5
      ∧ r.2.mem ((c.tc : Thread nD τ).loc main_v4_0) = wGram m ρ c main_v4_0
      ∧ r.2.mem ((c.tc : Thread nD τ).loc main_v4_1) = wGram m ρ c main_v4_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (wLaunch m ρ))
    (Tₙ := fun c => iprop(StableHlo.held (c : Thread nD τ) (Pipeline.ucRefs τ sig) (wGram m ρ c) ∗ ∃ r, prngReg c r))
    (hch := ⟨fun _ => .rfl, fun _ => .rfl, fun _ => .rfl, fun _ => .rfl, fun _ => .rfl, fun _ => .rfl, fun c => show (St (wGram m ρ) c : sProp 𝕄) ⊢ _ from by
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (wLaunch m ρ c)
        from Pipeline.unscopedBufs_held c (wLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = wGram m ρ c b)
    (hfin := fun c s' => by
      iintro ⟨⟨Hh, -⟩, HSI⟩
      unfold StableHlo.held
      imodintro
      iapply (pointsTo_read_all (Pipeline.ucRefs τ sig) (fun b => (((c : Thread nD τ)).1, b)) (wGram m ρ c) s')
      isplitl [Hh] <;> iassumption)
    (hQ := fun s h c =>
      have k (b : Ref sig .tc) (hs : ¬ (Proc.devRef .tc b : DevRef τ sig).isScoped) (hb : b ∉ written) :=
        (h c _ (mem_uc b hs)).trans (wGram_kept m ρ c b hb)
      ⟨h c _ (mem_uc main_v5 (by decide)), h c _ (mem_uc main_v4_0 (by decide)), h c _ (mem_uc main_v4_1 (by decide)),
       k main_arg0 (by decide) (by decide), k main_arg1 (by decide) (by decide), k main_arg2 (by decide) (by decide),
       k main_arg3 (by decide) (by decide), k main_arg4 (by decide) (by decide)⟩)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2.2.2) (run_named m ρ)

end Cert.Kernel.Hand

end
-- ==== Proof.F0.Run.lean ====
import proofs.«141517_j31224412242681_1_alg».proof.Proof.Gen.KernelIdeal.Launch
import proofs.«141517_j31224412242681_1_alg».proof.Proof.Gen.KernelIdeal.Skeleton
import proofs.«141517_j31224412242681_1_alg».proof.Proof.Gen.KernelIdeal.Points
import Idealize.ShloMosaic.Lib.Pipeline.Value
import Idealize.ShloMosaic.Lib.Ring
import Idealize.ShloMosaic.Lib.Pipeline.TableIdle

noncomputable section

namespace Cert.KernelIdeal.Hand

open Idealize.ShloMosaic Idealize.ShloMosaic.TcCoe
open Idealize.SL.RA Idealize.SL.BI
open Idealize.SL.BI.BIBase Idealize.SL.Sem
open Cert.KernelIdeal.Gen

variable {F : FTy → Type} [FloatOps F]

local notation "𝕄" => MT nD τ sig Unit (Elt F) ℕ (UR sig nD τ) ℕ

-- The two tests of the body: the reduction coordinate is the first, and the last, of its axis.
abbrev cond0 (i : grid0.Coords) : Prop :=
  Scalar.cmpi .ne (Scalar.extui (Scalar.cmpi .eq (BitVec.ofNat 32 (i 1).val) 0#32)) 0#32 = 1#1 ∧ k0_cond2 i = 1#1

-- The reduction axis has one point, so both hold everywhere.
theorem hcond0 : ∀ t : Fin cfg0.N, cond0 (grid0.coords t) :=
  (by decide +kernel : ∀ t : Fin grid0.N, cond0 (grid0.coords t))

theorem liveAt0 : ∀ t : Fin cfg0.N, cfg0.idle 2 (grid0.coords t) = false := by decide +kernel

set_option maxHeartbeats 1000000 in
-- Both tests hold: the accumulator is zeroed, the product of the two blocks is added to it, and the sum is stored in the output block.
theorem sound_kernel0 (c : Dev nD) (E : Set ℕ) (i : grid0.Coords) (hc : cond0 i) (arg2 : Memref sig .tc .vmem S2048x512 .f32) (harg2 : arg2.IsWhole)
    (arg3 : Memref sig .tc .vmem S512x256 .f32) (harg3 : arg3.IsWhole) (arg4 : Memref sig .tc .vmem S2048x256 .f32) (harg4 : arg4.IsWhole)
    (arg5 : Memref sig .tc .vmem S2048x256 .f32) (harg5 : arg5.IsWhole) (x0 : Vec F S2048x512 .f32) (x1 : Vec F S512x256 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (k0_pay2 x0 x1 k0_pay1) ∗ (∃ d, owns (c : Thread nD τ) arg5 fullShare d)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  rw [owns_eq_rep (c : Thread nD τ) arg2, owns_eq_rep (c : Thread nD τ) arg3]; unfold owns
  iintro ⟨H0, H1, ⟨%d2, %f2, -, H2⟩, ⟨%ds0, %fs0, -, HS0⟩, Hk⟩
  sl_exec (disch := first | exact hc.1 | exact hc.2)
  sl_step
  iapply Hk
  iframe H0 H1
  isplitl [H2]
  · iexists _; isplitr
    swap; · iexact H2
    ipureintro
    rw [View.read_writes_eq_canon _ _ _ fun y => ⟨_, List.mem_singleton_self _, View.mem_set_unit_zero (by decide) inb_S2048x256_S2048x256_0_0 y⟩, View.canon_unit_zero (by decide)]
    sl_unfold_words
    rw [View.readCov_cons_toLoadRect, View.readCov_unit_zero _ (by decide), View.readAt_rep, View.readAt_rep]
    exact congrArg₂ (k0_pay2 · · _) (View.ld_unit_zero (S := S2048x512) (by decide) _ x0) (View.ld_unit_zero (S := S512x256) (by decide) _ x1)
  iexists _, _; isplitr
  swap; · iexact HS0
  ipureintro; rfl

end Cert.KernelIdeal.Hand

end
-- ==== Proof.F0.lean ====
import proofs.«141517_j31224412242681_1_alg».proof.Proof.F0.Run

noncomputable section

namespace Cert.KernelIdeal.Hand

open Idealize.ShloMosaic Idealize.ShloMosaic.TcCoe
open Idealize.SL.RA Idealize.SL.BI
open Idealize.SL.BI.BIBase Idealize.SL.Sem
open Idealize.ShloMosaic.Pipeline (Dat BodyObligation)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block at point t, read off its array as the region finds it.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The body leaves each input block in place and the product of the two blocks in the output block.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay2 (iblk0 V c 0 t) (iblk0 V c 1 t) k0_pay1
  Φ _ := Pipeline.ΦA spec0 c
  q _ := fullShare
  owed _ := 0

theorem A_eq0 (c : Dev nD) (w : Fin cfg0.W) : (dat0 V c).A w = V c (Pipeline.arrRef spec0 w) := rfl

theorem before0 (c : Dev nD) (t : Fin cfg0.N) :
    (∀ d, (dat0 V c).before 0 t d = iblk0 V c 0 t) ∧ ∀ d, (dat0 V c).before 1 t d = iblk0 V c 1 t := by
  constructor <;> exact fun d => Dat.before_in_eq_fetched _ _ rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0, liveAt0 t]
  show iprop(Pipeline.ΦA spec0 c ∗ _) ⊢ wp _ _ _ (bodyAt0 t) fun _ => iprop(Pipeline.ΦA spec0 c ∗ _)
  unfold Pipeline.ΦA
  simp only [scopedRest0_split, ← owns_whole, (before0 V c t).1, (before0 V c t).2]
  iintro ⟨⟨⟨HS, Hr⟩, Hg⟩, Ho, ⟨%d0, H0⟩, ⟨%d1, H1⟩, ⟨%d2, H2⟩⟩
  iapply (sound_kernel0 c Set.univ _ (hcond0 t) _ _ _ _ _ _ _ _ (iblk0 V c 0 t) (iblk0 V c 1 t) _)
  iframe H0 H1 HS
  isplitl [H2]; · iexists _; iexact H2
  iintro ⟨H0, H1, H2, HS⟩
  iframe HS Hr Hg
  isplitl [Ho]; · iexact Ho
  isplitl [H0]; · iexact H0
  isplitl [H1]; · iexact H1
  iexact H2

theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := .rfl

end Cert.KernelIdeal.Hand

end
-- ==== Proof.F1.Runs.lean ====
import proofs.«141517_j31224412242681_1_alg».proof.Proof.Gen.KernelIdeal.Launch
import proofs.«141517_j31224412242681_1_alg».proof.Proof.Gen.KernelIdeal.Skeleton
import proofs.«141517_j31224412242681_1_alg».proof.Proof.Gen.KernelIdeal.Points
import Idealize.ShloMosaic.Lib.Pipeline.Value
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1
-- The body's first branch is taken exactly at the first column block of a row block,
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
-- and its second exactly at the last.
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev ms1_0 (t : Fin cfg1.N) : Memref sig .tc .vmem S1024x1024 .f32 := win1_0.stage (cfg1.slots t 0)
abbrev ms1_1 (t : Fin cfg1.N) : Memref sig .tc .vmem S1024x256 .f32 := win1_1.stage (cfg1.slots t 1)
abbrev ms1_2 (t : Fin cfg1.N) : Memref sig .tc .vmem S1024x256 .f32 := win1_2.stage (cfg1.slots t 2)
abbrev scM1_0 : Memref sig .tc .vmem S1024x256 .f32 := Memref.whole cc1_scratch0

/-- The region's resting invariant with `P` in place of the accumulator's ownership. -/
def Phi1 (c : Dev nD) (P : sProp 𝕄) : sProp 𝕄 :=
  iprop(iprop(P ∗ Pipeline.scopedRestBut (Ix := Unit) (Name := ℕ) (U := UR sig nD τ) (Lvl := ℕ) (Val := Elt F) spec1 c [cc1_scratch0]) ∗ (∃ r, prngReg c r))

theorem Phi1_mono (c : Dev nD) {P Q : sProp 𝕄} (h : P ⊢ Q) : Phi1 c P ⊢ Phi1 c Q :=
  sep_mono (sep_mono h .rfl) .rfl

theorem PhiA1_eq (c : Dev nD) : (Pipeline.ΦA spec1 c : sProp 𝕄) = Phi1 c iprop(∃ d, owns c.tc scM1_0 fullShare d) := by
  unfold Pipeline.ΦA Phi1; rw [scopedRest1_split]; simp only [scM1_0, owns_whole]; try rfl

theorem hz1 : (![0, 0] : Fin 2 → Nat) = fun _ => 0 := funext fun a => by fin_cases a <;> rfl

/-- A store of the whole block, made last, leaves its payload whatever was stored before. -/
theorem read_writes_whole1 {sg : RefSig} {κ : Kind} {sp : Space} (v : View sg κ sp S1024x256 .f32) (f : v.ty.Contents (Elt F)) (w : Vec F S1024x256 .f32) (L : List (View.Piece (Elt F) S1024x256 .f32)) :
    v.read (Elt F) (v.writes (Elt F) f (⟨Rect.unit ![0, 0] S1024x256.size inb_S1024x256_S1024x256_0_0, w⟩ :: L)) = w :=
  (View.read_writes_eq_canon _ _ _ fun y => ⟨_, List.mem_cons_self, View.mem_set_unit_zero hz1 inb_S1024x256_S1024x256_0_0 y⟩).trans (View.canon_cons_unit_zero hz1 _ w L)

variable (c : Dev nD) (i : grid1.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole)
  (x0 : Vec F S1024x1024 .f32) (x1 x2 xs : Vec F S1024x256 .f32) (E : Set ℕ)

set_option maxHeartbeats 1000000 in
/-- The body at any point that is not both first and last of a row block: the partial product of the two input blocks is added onto the accumulator, zeroed first at the start of a row block, and at its end the output buffer gets the sum clamped below at zero. -/
theorem run1 (h : ¬(cond1_0 i ∧ cond1_1 i)) (K : PUnit → sProp 𝕄) :
    iprop(owns c.tc arg2 fullShare x0 ∗ owns c.tc arg3 fullShare x1 ∗ owns c.tc arg4 fullShare x2 ∗ owns c.tc arg5 fullShare xs
        ∗ (iprop(owns c.tc arg2 fullShare x0 ∗ owns c.tc arg3 fullShare x1 ∗ owns c.tc arg4 fullShare (if cond1_1 i then k1_pay3 (k1_pay2 x0 x1 (if cond1_0 i then k1_pay1 else xs)) else x2) ∗ owns c.tc arg5 fullShare (k1_pay2 x0 x1 (if cond1_0 i then k1_pay1 else xs))) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel owns
  iintro ⟨⟨%f0, %hf0, H0⟩, ⟨%f1, %hf1, H1⟩, ⟨%f2, %hf2, H2⟩, ⟨%fs, %hfs, HS⟩, Hk⟩
  by_cases hc0 : cond1_0 i <;> by_cases hc1 : cond1_1 i
  · exact absurd ⟨hc0, hc1⟩ h
  all_goals
    first | rw [if_pos hc0] | rw [if_neg hc0]
    first | rw [if_pos hc1] | rw [if_neg hc1]
    sl_exec (disch := first | exact hc0 | exact hc1)
    sl_step
    iapply Hk
    isplitl [H0]; swap; isplitl [H1]; swap; isplitl [H2]
    all_goals
      iexists _; isplitr; swap; · iassumption
      ipureintro
      first | (sl_unfold_run_names; rw [read_writes_whole1]; simp only [View.readAt_eq_ld, hf0, hf1, hfs, View.ld_unit_zero (S := S1024x1024) hz1, View.ld_unit_zero (S := S1024x256) hz1, View.readCov_unit_zero (S := S1024x256) _ hz1]) | exact hf0 | exact hf1 | exact hf2

end Cert.KernelIdeal.Hand

end
-- ==== Proof.F1.lean ====
import proofs.«141517_j31224412242681_1_alg».proof.Proof.F1.Runs

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of array `w` that point `t` works on, at the array's contents on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: this point's partial product added onto the zero fill at the start of a row block, onto what the point before left otherwise. -/
def acc1 (c : Dev nD) (n : ℕ) : Vec F S1024x256 .f32 :=
  if h : n < cfg1.N then
    k1_pay2 (iblk1 V c 0 ⟨n, h⟩) (iblk1 V c 1 ⟨n, h⟩) (if h0 : n % 8 = 0 then k1_pay1 else acc1 c (n - 1))
  else k1_pay1
termination_by n
decreasing_by omega

theorem acc1_eq (c : Dev nD) (t : Fin cfg1.N) :
    acc1 V c t.val = k1_pay2 (iblk1 V c 0 t) (iblk1 V c 1 t) (if t.val % 8 = 0 then k1_pay1 else acc1 V c (t.val - 1)) := by
  rw [acc1, dif_pos t.isLt]; rfl

/-- The invariant before point `n`: the accumulator holds what the point before left, anything before the first. -/
def PhiS1 (c : Dev nD) (n : ℕ) : sProp 𝕄 :=
  Phi1 c iprop(∃ xs, ⌜n ≠ 0 → xs = acc1 V c (n - 1)⌝ ∗ owns c.tc scM1_0 fullShare xs)

/-- The proof data: each input is left as found, the output is the rectified accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val)
  Φ t := PhiS1 V c t.val
  q _ := fullShare
  owed _ := 0

theorem A_eq1 (c : Dev nD) (w : Fin cfg1.W) : (dat1 V c).A w = V c (Pipeline.arrRef spec1 w) := by
  dsimp only [dat1]

/-- What the body finds of an input at a point is that input's block there. -/
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

/-- What the body must leave of the output: the rectified accumulator at the end of a row block, what it found elsewhere. -/
theorem leaves1_2 (c : Dev nD) (t : Fin cfg1.N) : (dat1 V c).leavesExact 2 t
    = if cond1_1 (grid1.coords t) then owns c.tc (ms1_2 t) fullShare (k1_pay3 (acc1 V c t.val)) else iprop(∃ d, owns c.tc (ms1_2 t) fullShare ((dat1 V c).before 2 t d)) := by
  unfold Dat.leavesExact
  by_cases h : cond1_1 (grid1.coords t)
  · rw [liveAt1_2 t h, if_pos h]; rfl
  · rw [idleAt1_2 t h, noFlush1_2 t h, if_neg h]

/-- What the body leaves in the accumulator at point `t` is `acc1` there. -/
theorem acc1_step (c : Dev nD) (t : Fin cfg1.N) (xs : Vec F S1024x256 .f32) (hxs : t.val ≠ 0 → xs = acc1 V c (t.val - 1)) :
    k1_pay2 (iblk1 V c 0 t) (iblk1 V c 1 t) (if cond1_0 (grid1.coords t) then k1_pay1 else xs) = acc1 V c t.val := by
  rw [acc1_eq]
  by_cases h0 : t.val % 8 = 0
  · rw [if_pos h0, if_pos ((hcond1_0 t).mpr h0)]
  · rw [if_neg h0, if_neg (mt (hcond1_0 t).mp h0), hxs (by omega)]

theorem sound_body1 (c : Dev nD) (t : Fin cfg1.N) :
    iprop((dat1 V c).Φ t.castSucc ∗ (dat1 V c).owesAt () t.castSucc
      ∗ (∃ d, owns c.tc (ms1_0 t) fullShare ((dat1 V c).before 0 t d))
      ∗ (∃ d, owns c.tc (ms1_1 t) fullShare ((dat1 V c).before 1 t d))
      ∗ (∃ d, owns c.tc (ms1_2 t) fullShare ((dat1 V c).before 2 t d)))
    ⊢ wp frame (wpE (defs₀ (F := F)) Variants.none c none) Set.univ (bodyAt1 t) (fun _ =>
      iprop((dat1 V c).Φ t.succ ∗ (dat1 V c).owesAt () t.succ ∗ (dat1 V c).leavesExact 0 t ∗ (dat1 V c).leavesExact 1 t ∗ (dat1 V c).leavesExact 2 t)) := by
  simp only [before1_0, before1_1]
  rw [show (dat1 V c).owesAt () t.succ = (dat1 V c).owesAt () t.castSucc from rfl,
    show (dat1 V c).Φ t.castSucc = PhiS1 V c t.val from rfl, show (dat1 V c).Φ t.succ = PhiS1 V c (t.val + 1) from rfl,
    show (dat1 V c).leavesExact 0 t = owns c.tc (ms1_0 t) fullShare (iblk1 V c 0 t) from by unfold Dat.leavesExact; rw [liveAt1_0 t]; rfl,
    show (dat1 V c).leavesExact 1 t = owns c.tc (ms1_1 t) fullShare (iblk1 V c 1 t) from by unfold Dat.leavesExact; rw [liveAt1_1 t]; rfl,
    leaves1_2]
  unfold PhiS1 Phi1
  iintro ⟨⟨⟨⟨%xs, %hxs, HS⟩, Hr⟩, Hg⟩, Ho, ⟨%d0, H0⟩, ⟨%d1, H1⟩, ⟨%d2, H2⟩⟩
  iapply run1 c (grid1.coords t) _ _ _ _ _ _ _ _ _ _ _ xs Set.univ (fun h => by have := (hcond1_0 t).mp h.1; have := (hcond1_1 t).mp h.2; omega)
  iframe H0 H1 H2 HS
  rw [acc1_step V c t xs hxs]
  by_cases hc1 : cond1_1 (grid1.coords t)
  all_goals
    first | rw [if_pos hc1, if_pos hc1] | rw [if_neg hc1, if_neg hc1]
    iintro ⟨H0, H1, H2, HS⟩
    iframe Hr Hg Ho H0 H1
    isplitl [HS]
    · iexists _; isplitr; swap; · iexact HS
      ipureintro; exact fun _ => rfl
    first | iexact H2 | (iexists d2; iexact H2)

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [PhiA1_eq]
  exact Phi1_mono c (by iintro ⟨%d, H⟩; iexists d; isplitr; · ipureintro; exact fun h => absurd rfl h
                        iexact H)

theorem hout1 (c : Dev nD) : (dat1 V c).Φ (Fin.last cfg1.N) ⊢ (Pipeline.ΦA spec1 c : sProp 𝕄) := by
  rw [PhiA1_eq]
  exact Phi1_mono c (by iintro ⟨%d, -, H⟩; iexists d; iexact H)

end Cert.KernelIdeal.Hand

end
-- ==== Proof.F2.Run.lean ====
import proofs.«141517_j31224412242681_1_alg».proof.Proof.Gen.KernelIdeal.Launch
import proofs.«141517_j31224412242681_1_alg».proof.Proof.Gen.KernelIdeal.Skeleton
import proofs.«141517_j31224412242681_1_alg».proof.Proof.Gen.KernelIdeal.Points
import Idealize.ShloMosaic.Lib.Pipeline.Value
import Idealize.ShloMosaic.Lib.Ring
import Idealize.ShloMosaic.Lib.Pipeline.TableIdle

noncomputable section

namespace Cert.KernelIdeal.Hand

open Idealize.ShloMosaic Idealize.ShloMosaic.TcCoe
open Idealize.SL.RA Idealize.SL.BI
open Idealize.SL.BI.BIBase Idealize.SL.Sem
open Cert.KernelIdeal.Gen

variable {F : FTy → Type} [FloatOps F]

local notation "𝕄" => MT nD τ sig Unit (Elt F) ℕ (UR sig nD τ) ℕ

-- The two tests of the body: the reduction coordinate is the first, and the last, of its axis.
abbrev cond2 (i : grid2.Coords) : Prop :=
  Scalar.cmpi .ne (Scalar.extui (Scalar.cmpi .eq (BitVec.ofNat 32 (i 1).val) 0#32)) 0#32 = 1#1 ∧ k2_cond2 i = 1#1

-- The reduction axis has one point, so both hold everywhere.
theorem hcond2 : ∀ t : Fin cfg2.N, cond2 (grid2.coords t) :=
  (by decide +kernel : ∀ t : Fin grid2.N, cond2 (grid2.coords t))

theorem liveAt2 : ∀ t : Fin cfg2.N, cfg2.idle 2 (grid2.coords t) = false := by decide +kernel

set_option maxHeartbeats 1000000 in
-- Both tests hold: the accumulator is zeroed, the product of the two blocks is added to it, and the sum is stored in the output block.
theorem sound_kernel2 (c : Dev nD) (E : Set ℕ) (i : grid2.Coords) (hc : cond2 i) (arg2 : Memref sig .tc .vmem S2048x256 .f32) (harg2 : arg2.IsWhole)
    (arg3 : Memref sig .tc .vmem S256x128 .f32) (harg3 : arg3.IsWhole) (arg4 : Memref sig .tc .vmem S2048x128 .f32) (harg4 : arg4.IsWhole)
    (arg5 : Memref sig .tc .vmem S2048x128 .f32) (harg5 : arg5.IsWhole) (x0 : Vec F S2048x256 .f32) (x1 : Vec F S256x128 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (k2_pay2 x0 x1 k2_pay1) ∗ (∃ d, owns (c : Thread nD τ) arg5 fullShare d)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  rw [owns_eq_rep (c : Thread nD τ) arg2, owns_eq_rep (c : Thread nD τ) arg3]; unfold owns
  iintro ⟨H0, H1, ⟨%d2, %f2, -, H2⟩, ⟨%ds0, %fs0, -, HS0⟩, Hk⟩
  sl_exec (disch := first | exact hc.1 | exact hc.2)
  sl_step
  iapply Hk
  iframe H0 H1
  isplitl [H2]
  · iexists _; isplitr
    swap; · iexact H2
    ipureintro
    rw [View.read_writes_eq_canon _ _ _ fun y => ⟨_, List.mem_singleton_self _, View.mem_set_unit_zero (by decide) inb_S2048x128_S2048x128_0_0 y⟩, View.canon_unit_zero (by decide)]
    sl_unfold_words
    rw [View.readCov_cons_toLoadRect, View.readCov_unit_zero _ (by decide), View.readAt_rep, View.readAt_rep]
    exact congrArg₂ (k2_pay2 · · _) (View.ld_unit_zero (S := S2048x256) (by decide) _ x0) (View.ld_unit_zero (S := S256x128) (by decide) _ x1)
  iexists _, _; isplitr
  swap; · iexact HS0
  ipureintro; rfl

end Cert.KernelIdeal.Hand

end
-- ==== Proof.F2.lean ====
import proofs.«141517_j31224412242681_1_alg».proof.Proof.F2.Run

noncomputable section

namespace Cert.KernelIdeal.Hand

open Idealize.ShloMosaic Idealize.ShloMosaic.TcCoe
open Idealize.SL.RA Idealize.SL.BI
open Idealize.SL.BI.BIBase Idealize.SL.Sem
open Idealize.ShloMosaic.Pipeline (Dat BodyObligation)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block at point t, read off its array as the region finds it.
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- The body leaves each input block in place and the product of the two blocks in the output block.
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay2 (iblk2 V c 0 t) (iblk2 V c 1 t) k2_pay1
  Φ _ := Pipeline.ΦA spec2 c
  q _ := fullShare
  owed _ := 0

theorem A_eq2 (c : Dev nD) (w : Fin cfg2.W) : (dat2 V c).A w = V c (Pipeline.arrRef spec2 w) := rfl

theorem before2 (c : Dev nD) (t : Fin cfg2.N) :
    (∀ d, (dat2 V c).before 0 t d = iblk2 V c 0 t) ∧ ∀ d, (dat2 V c).before 1 t d = iblk2 V c 1 t := by
  constructor <;> exact fun d => Dat.before_in_eq_fetched _ _ rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2, liveAt2 t]
  show iprop(Pipeline.ΦA spec2 c ∗ _) ⊢ wp _ _ _ (bodyAt2 t) fun _ => iprop(Pipeline.ΦA spec2 c ∗ _)
  unfold Pipeline.ΦA
  simp only [scopedRest2_split, ← owns_whole, (before2 V c t).1, (before2 V c t).2]
  iintro ⟨⟨⟨HS, Hr⟩, Hg⟩, Ho, ⟨%d0, H0⟩, ⟨%d1, H1⟩, ⟨%d2, H2⟩⟩
  iapply (sound_kernel2 c Set.univ _ (hcond2 t) _ _ _ _ _ _ _ _ (iblk2 V c 0 t) (iblk2 V c 1 t) _)
  iframe H0 H1 HS
  isplitl [H2]; · iexists _; iexact H2
  iintro ⟨H0, H1, H2, HS⟩
  iframe HS Hr Hg
  isplitl [Ho]; · iexact Ho
  isplitl [H0]; · iexact H0
  isplitl [H1]; · iexact H1
  iexact H2

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := .rfl

end Cert.KernelIdeal.Hand

end
-- ==== Proof.F3.Runs.lean ====
import proofs.«141517_j31224412242681_1_alg».proof.Proof.Gen.KernelIdeal.Launch
import proofs.«141517_j31224412242681_1_alg».proof.Proof.Gen.KernelIdeal.Skeleton
import proofs.«141517_j31224412242681_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

theorem live3 : ∀ t : Fin cfg3.N, cfg3.idle 0 (grid3.coords t) = false ∧ cfg3.idle 1 (grid3.coords t) = false
    ∧ (t.val % 8 = 7 → cfg3.idle 2 (grid3.coords t) = false ∧ cfg3.idle 3 (grid3.coords t) = false) := by decide +kernel
theorem idle3 : ∀ t : Fin cfg3.N, t.val % 8 ≠ 7 → (cfg3.idle 2 (grid3.coords t) = true ∧ (cfg3.win 2).flush t = false)
    ∧ cfg3.idle 3 (grid3.coords t) = true ∧ (cfg3.win 3).flush t = false := by decide +kernel

abbrev scM3_0 : Memref sig .tc .vmem S1024x128 .f32 := Memref.whole cc3_scratch0

-- The entry invariant with the accumulator's ownership split off.
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

theorem hz3 : (![0, 0] : Fin 2 → Nat) = fun _ => 0 := funext fun a => by fin_cases a <;> rfl

section Whole
variable (sh : Shape) {off : Fin sh.rank → ℕ} (h : off = fun _ => 0) (inb : ∀ a, off a + sh.size a ≤ sh.size a)
include h

-- The last store through the whole-shape rectangle leaves its payload, whatever was stored before.
theorem read_writes_whole (v : View sig .tc .vmem sh .f32) (f : v.ty.Contents (Elt F)) (w : Vec F sh .f32) (L : List (View.Piece (Elt F) sh .f32)) :
    v.read (Elt F) (v.writes (Elt F) f (⟨Rect.unit off sh.size inb, w⟩ :: L)) = w :=
  (View.read_writes_eq_canon v f _ fun y => ⟨_, List.mem_cons_self .., View.mem_set_unit_zero h inb y⟩).trans (View.canon_cons_unit_zero h inb w L)

-- A load through it after such a store reads the payload.
theorem readCov_whole (v : View sig .tc .vmem sh .f32) (w : Vec F sh .f32) (L : List (View.Piece (Elt F) sh .f32)) :
    v.readCov (⟨Rect.unit off sh.size inb, w⟩ :: L) (Rect.unit off sh.size inb).toLoadRect = w := by
  rw [View.readCov_eq_canon_ld _ _ _ fun y => ⟨_, List.mem_cons_self .., View.mem_set_unit_zero h inb y⟩, View.canon_cons_unit_zero h, View.ld_unit_zero h]

-- A load through it of a whole memref reads the memref's contents.
theorem readAt_whole {m : Memref sig .tc .vmem sh .f32} (hm : m.IsWhole) (X : Vec F sh .f32) :
    m.view.readAt (Elt F) (Rect.unit off sh.size inb).toLoadRect (hm.unread X) = X := by
  rw [View.readAt_eq_ld, hm.read_unread, View.ld_unit_zero h]

end Whole

variable (c : Dev nD) (i : grid3.Coords) {arg2 : Memref sig .tc .vmem S1024x1024 .f32} (harg2 : arg2.IsWhole) {arg3 : Memref sig .tc .vmem S1024x128 .f32} (harg3 : arg3.IsWhole)
  {arg4 : Memref sig .tc .vmem S1024x64 .f32} (harg4 : arg4.IsWhole) {arg5 : Memref sig .tc .vmem S1024x64 .f32} (harg5 : arg5.IsWhole) {arg6 : Memref sig .tc .vmem S1024x128 .f32} (harg6 : arg6.IsWhole)
  (x0 : Vec F S1024x1024 .f32) (x1 xs : Vec F S1024x128 .f32) (xi2 xi3 : Vec F S1024x64 .f32)

-- What the body leaves in the accumulator: the product of the two blocks added to what it held, or to zero after a reset.
def acc3_step : Vec F S1024x128 .f32 := k3_pay2 x0 x1 (if cond3_0 i then k3_pay1 else xs)

set_option maxHeartbeats 1000000 in
-- The body on whole memrefs: the inputs stay, the accumulator takes its step, and where the second branch is taken the outputs take its two column halves.
theorem run3 (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs
        ∗ (iprop(owns (c : Thread nD τ) arg2 fullShare x0 ∗ owns (c : Thread nD τ) arg3 fullShare x1
            ∗ owns (c : Thread nD τ) arg4 fullShare (if cond3_1 i then k3_pay3 (acc3_step i x0 x1 xs) else xi2)
            ∗ owns (c : Thread nD τ) arg5 fullShare (if cond3_1 i then k3_pay4 (acc3_step i x0 x1 xs) else xi3)
            ∗ owns (c : Thread nD τ) arg6 fullShare (acc3_step i x0 x1 xs)) -∗ K ⟨⟩))
      ⊢ wp frame (wpE (defs₀ (F := F)) Variants.none c none) E (cc3__matmul_split_kernel i arg2 harg2 arg3 harg3 arg4 harg4 arg5 harg5 arg6 harg6) K := by
  simp only [cc3__matmul_split_kernel_eq_skeleton]; unfold cc3__matmul_split_kernel_skel acc3_step owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hfs0
  by_cases hc0 : cond3_0 i <;> by_cases hc1 : cond3_1 i <;>
    (first | rw [if_pos hc0] | rw [if_neg hc0]) <;> (first | rw [if_pos hc1, if_pos hc1] | rw [if_neg hc1, if_neg hc1]) <;>
  · sl_exec (disch := first | exact hc0 | exact hc1)
    sl_step
    (try sl_unfold_run_names)
    simp only [readCov_whole S1024x128 hz3, readAt_whole S1024x1024 hz3, readAt_whole S1024x128 hz3]
    iapply Hk
    isplitl [H0]; · iexists _; isplitr; swap; · iexact H0
                    ipureintro; simp only [Memref.IsWhole.read_unread, read_writes_whole S1024x64 hz3, read_writes_whole S1024x128 hz3]
    isplitl [H1]; · iexists _; isplitr; swap; · iexact H1
                    ipureintro; simp only [Memref.IsWhole.read_unread, read_writes_whole S1024x64 hz3, read_writes_whole S1024x128 hz3]
    isplitl [H2]; · iexists _; isplitr; swap; · iexact H2
                    ipureintro; simp only [Memref.IsWhole.read_unread, read_writes_whole S1024x64 hz3, read_writes_whole S1024x128 hz3]
    isplitl [H3]; · iexists _; isplitr; swap; · iexact H3
                    ipureintro; simp only [Memref.IsWhole.read_unread, read_writes_whole S1024x64 hz3, read_writes_whole S1024x128 hz3]
    iexists _; isplitr; swap; · iexact HS0
    ipureintro; simp only [Memref.IsWhole.read_unread, read_writes_whole S1024x64 hz3, read_writes_whole S1024x128 hz3]

end Cert.KernelIdeal.Hand

end
-- ==== Proof.F3.lean ====
import proofs.«141517_j31224412242681_1_alg».proof.Proof.F3.Runs

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off its array as the region finds it.
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- The accumulator before point `n`: the body's step at point `n - 1` from what it held before that point.
def acc3 (c : Dev nD) : ℕ → Vec F S1024x128 .f32
  | 0 => k3_pay1
  | n + 1 => if h : n < cfg3.N then acc3_step (grid3.coords ⟨n, h⟩) (iblk3 V c 0 ⟨n, h⟩) (iblk3 V c 1 ⟨n, h⟩) (acc3 c n) else k3_pay1

-- At the first point the step resets the accumulator, so what it held does not matter.
theorem acc3_succ (c : Dev nD) (t : Fin cfg3.N) (xs : Vec F S1024x128 .f32) (hxs : t.val ≠ 0 → xs = acc3 V c t.val) :
    acc3_step (grid3.coords t) (iblk3 V c 0 t) (iblk3 V c 1 t) xs = acc3 V c (t.val + 1) := by
  refine .trans ?_ (dif_pos t.isLt).symm
  unfold acc3_step
  by_cases h : cond3_0 (grid3.coords t)
  · rw [if_pos h, if_pos h]
  · rw [hxs fun h' => h ((hcond3_0 t).mpr (by rw [h']))]

def after3 (c : Dev nD) (w : Fin cfg3.W) (t : Fin cfg3.N) : (cfg3.win w).block.Idx → Elt F (cfg3.win w).elt :=
  match w with
  | ⟨0, _⟩ => iblk3 V c 0 t
  | ⟨1, _⟩ => iblk3 V c 1 t
  | ⟨2, _⟩ => k3_pay3 (acc3 V c (t.val + 1))
  | ⟨3, _⟩ => k3_pay4 (acc3 V c (t.val + 1))

-- Before point `t` the accumulator holds `acc3 t`, before the first point anything.
def Phi3 (c : Dev nD) (t : Fin (cfg3.N + 1)) : sProp 𝕄 :=
  iprop(iprop(iprop(∃ d, ⌜t.val ≠ 0 → d = acc3 V c t.val⌝ ∗ owns (c : Thread nD τ) scM3_0 fullShare d)
      ∗ Pipeline.scopedRestBut (Ix := Unit) (Name := ℕ) (U := UR sig nD τ) (Lvl := ℕ) (Val := Elt F) spec3 c [cc3_scratch0]) ∗ (∃ r, prngReg c r))

def dat3 (c : Dev nD) : Dat τ (Elt F) Unit ℕ (UR sig nD τ) ℕ cfg3 c where
  A w := V c (Pipeline.arrRef spec3 w)
  after := after3 V c
  Φ := Phi3 V c
  q _ := fullShare
  owed _ := 0

theorem A_eq3 (c : Dev nD) (w : Fin cfg3.W) : (dat3 V c).A w = V c (Pipeline.arrRef spec3 w) := by
  dsimp only [dat3]

-- What the body reads of either input at point `t` is that point's block.
theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

section Leaves
variable {c : Dev nD} (dat : Dat τ (Elt F) Unit ℕ (UR sig nD τ) ℕ cfg3 c) (w : Fin cfg3.W) (t : Fin cfg3.N)

theorem leaves_live (h : cfg3.idle w (grid3.coords t) = false) :
    dat.leavesExact w t = owns (c : Thread nD τ) ((cfg3.win w).stage (cfg3.slots t w)) fullShare (dat.after w t) := by
  unfold Dat.leavesExact; rw [h]

theorem leaves_out (d) (hl : t.val % 8 = 7 → cfg3.idle w (grid3.coords t) = false)
    (hi : t.val % 8 ≠ 7 → cfg3.idle w (grid3.coords t) = true ∧ (cfg3.win w).flush t = false) :
    owns (c : Thread nD τ) ((cfg3.win w).stage (cfg3.slots t w)) fullShare (if cond3_1 (grid3.coords t) then dat.after w t else dat.before w t d) ⊢ dat.leavesExact w t := by
  by_cases h : cond3_1 (grid3.coords t)
  · rw [if_pos h, leaves_live dat w t (hl ((hcond3_1 t).mp h))]
  · have hi := hi (mt (hcond3_1 t).mpr h)
    rw [if_neg h, dat.leavesExact_idle w t hi.1 hi.2]; iintro H; iexists d; iexact H

end Leaves

def bodyPre3 (c : Dev nD) (t : Fin cfg3.N) (w : Fin cfg3.W) : sProp 𝕄 :=
  iprop(∃ d, owns (c : Thread nD τ) ((cfg3.win w).stage (cfg3.slots t w)) fullShare ((dat3 V c).before w t d))

-- The body at any point takes the accumulator from `acc3 t` to `acc3 (t + 1)`.
theorem sound_body3 (c : Dev nD) (t : Fin cfg3.N) :
    iprop((dat3 V c).Φ t.castSucc ∗ (dat3 V c).owesAt () t.castSucc ∗ bodyPre3 V c t 0 ∗ bodyPre3 V c t 1 ∗ bodyPre3 V c t 2 ∗ bodyPre3 V c t 3)
      ⊢ wp frame (wpE (defs₀ (F := F)) Variants.none c none) Set.univ (bodyAt3 t) (fun _ =>
        iprop((dat3 V c).Φ t.succ ∗ (dat3 V c).owesAt () t.succ ∗ (dat3 V c).leavesExact 0 t ∗ (dat3 V c).leavesExact 1 t ∗ (dat3 V c).leavesExact 2 t ∗ (dat3 V c).leavesExact 3 t)) := by
  unfold bodyPre3 bodyAt3
  simp only [before3_0, before3_1]
  rw [show (dat3 V c).owesAt () t.succ = (dat3 V c).owesAt () t.castSucc from rfl, show (dat3 V c).Φ = Phi3 V c from rfl,
    leaves_live _ 0 t (live3 t).1, leaves_live _ 1 t (live3 t).2.1]
  unfold Phi3
  iintro ⟨⟨⟨⟨%xs, %hxs, HS⟩, HR⟩, Hg⟩, Ho, ⟨%d0, H0⟩, ⟨%d1, H1⟩, ⟨%d2, H2⟩, ⟨%d3, H3⟩⟩
  iapply run3 c (grid3.coords t) _ _ _ _ _ (iblk3 V c 0 t) (iblk3 V c 1 t) xs _ _ Set.univ
  isplitl [H0]; · iexact H0
  isplitl [H1]; · iexact H1
  isplitl [H2]; · iexact H2
  isplitl [H3]; · iexact H3
  isplitl [HS]; · iexact HS
  rw [acc3_succ V c t xs hxs]
  iintro ⟨H0, H1, H2, H3, HS⟩
  isplitl [HS HR Hg]
  · isplitl [HS HR]
    · isplitl [HS]
      · iexists _; isplitr; swap; · iexact HS
        ipureintro; exact fun _ => rfl
      iexact HR
    iexact Hg
  isplitl [Ho]; · iexact Ho
  isplitl [H0]; · iexact H0
  isplitl [H1]; · iexact H1
  isplitl [H2]; · iapply leaves_out (dat3 V c) 2 t d2 (fun h => ((live3 t).2.2 h).1) (fun h => (idle3 t h).1)
                  iexact H2
  iapply leaves_out (dat3 V c) 3 t d3 (fun h => ((live3 t).2.2 h).2) (fun h => (idle3 t h).2)
  iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [PhiA3_eq]; show _ ⊢ Phi3 V c 0; unfold Phi3
  iintro ⟨⟨⟨%d, HS⟩, HR⟩, Hg⟩
  isplitl [HS HR]
  · isplitl [HS]
    · iexists d; isplitr; · ipureintro; exact fun h => absurd rfl h
      iexact HS
    iexact HR
  iexact Hg

theorem hout3 (c : Dev nD) : (dat3 V c).Φ (Fin.last cfg3.N) ⊢ (Pipeline.ΦA spec3 c : sProp 𝕄) := by
  rw [PhiA3_eq]; show Phi3 V c _ ⊢ _; unfold Phi3
  iintro ⟨⟨⟨%d, -, HS⟩, HR⟩, Hg⟩
  isplitl [HS HR]
  · isplitl [HS]
    · iexists d; iexact HS
    iexact HR
  iexact Hg

end Cert.KernelIdeal.Hand

end
-- ==== Proof.F4.lean ====
import proofs.«141517_j31224412242681_1_alg».proof.Proof.Gen.KernelIdeal.Launch
import proofs.«141517_j31224412242681_1_alg».proof.Proof.Gen.KernelIdeal.Skeleton
import proofs.«141517_j31224412242681_1_alg».proof.Proof.Gen.KernelIdeal.Points
import Idealize.ShloMosaic.Lib.Pipeline.Value
import Idealize.ShloMosaic.Lib.Ring
import Idealize.ShloMosaic.Lib.Pipeline.TableIdle

noncomputable section

namespace Cert.KernelIdeal.Hand

open Idealize.ShloMosaic Idealize.ShloMosaic.TcCoe
open Idealize.SL.RA Idealize.SL.BI
open Idealize.SL.BI.BIBase Idealize.SL.BI.Laws Idealize.SL.Sem
open Idealize.ShloMosaic.Pipeline (Dat BodyObligation)
open Cert.KernelIdeal.Gen

variable {F : FTy → Type} [FloatOps F]

local notation "𝕄" => MT nD τ sig Unit (Elt F) ℕ (UR sig nD τ) ℕ

theorem zeros4 : (![0, 0] : Fin 2 → Nat) = fun _ => 0 := funext fun a => by fin_cases a <;> rfl

set_option maxHeartbeats 1000000 in
-- The body loads its two row blocks whole and stores their product whole.
theorem sound_kernel4 (c : Dev nD) (E : Set ℕ) (i : grid4.Coords) (arg2 : Memref sig .tc .vmem S2048x64 .f32) (harg2 : arg2.IsWhole)
    (arg3 : Memref sig .tc .vmem S2048x64 .f32) (harg3 : arg3.IsWhole) (arg4 : Memref sig .tc .vmem S2048x2048 .f32) (harg4 : arg4.IsWhole)
    (zi zj : Vec F S2048x64 .f32) (K : PUnit → sProp 𝕄) :
    iprop(owns (c : Thread nD τ) arg2 fullShare zi ∗ owns (c : Thread nD τ) arg3 fullShare zj ∗ (∃ d, owns (c : Thread nD τ) arg4 fullShare d)
        ∗ (iprop(owns (c : Thread nD τ) arg2 fullShare zi ∗ owns (c : Thread nD τ) arg3 fullShare zj ∗ owns (c : Thread nD τ) arg4 fullShare (k4_pay1 zi zj)) -∗ K ⟨⟩))
      ⊢ wp frame (wpE (defs₀ (F := F)) Variants.none c none) E (cc4__recon_kernel i arg2 harg2 arg3 harg3 arg4 harg4) K := by
  simp only [cc4__recon_kernel_eq_skeleton]; unfold cc4__recon_kernel_skel
  rw [owns_eq_rep (c : Thread nD τ) arg2, owns_eq_rep (c : Thread nD τ) arg3]; unfold owns
  iintro ⟨H0, H1, ⟨%d2, %f2, -, H2⟩, Hk⟩
  sl_exec
  sl_step
  iapply Hk
  iframe H0 H1
  iexists _; isplitr
  swap; · iexact H2
  ipureintro
  rw [View.read_writes_eq_canon _ _ _ fun y => ⟨_, List.mem_singleton_self _, View.mem_set_unit_zero zeros4 inb_S2048x2048_S2048x2048_0_0 y⟩,
    View.canon_unit_zero zeros4, View.readAt_rep, View.readAt_rep]
  exact congrArg₂ k4_pay1 (View.ld_unit_zero (S := S2048x64) zeros4 _ zi) (View.ld_unit_zero (S := S2048x64) zeros4 _ zj)

variable (V : (c : Dev nD) → (b : Ref sig .tc) → Buf (Elt F) ((c : Thread nD τ).loc b))

-- Window w's block at point t, read off its array as the region finds it.
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

-- The one array behind the two input windows is held at its two half shares.
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay1 (iblk4 V c 0 t) (iblk4 V c 1 t)
  Φ _ := Pipeline.ΦA spec4 c
  q w := match w with
    | ⟨0, _⟩ => fullShare.left
    | ⟨1, _⟩ => fullShare.right
    | ⟨2, _⟩ => fullShare
  owed _ := 0

theorem before4 (c : Dev nD) (t : Fin cfg4.N) :
    (∀ d, (dat4 V c).before 0 t d = iblk4 V c 0 t) ∧ ∀ d, (dat4 V c).before 1 t d = iblk4 V c 1 t := by
  constructor <;> exact fun d => Dat.before_in_eq_fetched _ _ rfl (fun _ => rfl) (fun _ _ _ => rfl) (fun _ => rfl) t d

theorem body_obligation4 (c : Dev nD) : BodyObligation (dat4 (F := F) V c) (defs₀ (F := F)) Variants.none () Set.univ := fun t => by
  rw [bigSep_W4, bigSep_W4]
  simp only [(before4 V c t).1, (before4 V c t).2]
  rw [show (dat4 V c).Φ t.succ = (dat4 V c).Φ t.castSucc from rfl]
  show _ ⊢ wp _ _ _ (bodyAt4 t) _
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  iframe H0 H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem hin4 (c : Dev nD) : (Pipeline.ΦA spec4 c : sProp 𝕄) ⊢ (dat4 V c).Φ 0 := .rfl

theorem hout4 (c : Dev nD) : (dat4 V c).Φ (Fin.last cfg4.N) ⊢ (Pipeline.ΦA spec4 c : sProp 𝕄) := .rfl

def exitV4 (c : Dev nD) : (b : Ref sig .tc) → Buf (Elt F) ((c : Thread nD τ).loc b) :=
  Function.update (V c) main_v5 ((dat4 V c).arrAt 2 cfg4.N)

-- A buffer held whole is held at its two half shares.
theorem halves (c : Dev nD) (f : Buf (Elt F) ((c : Thread nD τ).loc main_v4_0)) :
    (((c : Thread nD τ).loc main_v4_0) ↦{fullShare} f : sProp 𝕄)
      ⊣⊢ iprop((((c : Thread nD τ).loc main_v4_0) ↦{fullShare.left} f) ∗ (((c : Thread nD τ).loc main_v4_0) ↦{fullShare.right} f)) :=
  pointsTo_share (PosShare.mem_left_op_right fullShare)

-- The buffers behind the region's arrays, at contents W, are its arrays: the one two windows read as its two halves.
theorem arrays4 (c : Dev nD) (W : (b : Ref sig .tc) → Buf (Elt F) ((c : Thread nD τ).loc b)) :
    (Pipeline.arrBufs (cfgs 4).spec c W : sProp 𝕄) ⊣⊢ (dat4 V c).arrays fun w => W (Pipeline.arrRef spec4 w) := by
  classical
  unfold Pipeline.arrBufs Dat.arrays
  rw [show Finset.univ.image (Pipeline.arrRef (cfgs 4).spec) = {main_v4_0, main_v5} from by decide, bigSep_W4,
    bigSep_insert (by decide), bigSep_singleton, (arr_whole4 0).set_eq_univ, (arr_whole4 2).set_eq_univ]
  exact (sep_congr_left (halves c _)).trans sep_assoc

theorem entry4 (c : Dev nD) : (unscopedBufs c (V c) : sProp 𝕄) ⊢ iprop((dat4 V c).arrays ((dat4 V c).arrAt · 0) ∗ Pipeline.unscopedRest spec4 c (V c)) := by
  rw [Pipeline.unscopedBufs_split₀ cfgs 4 winFacts₀4.arr_unscoped c (V c)]
  exact sep_mono (arrays4 V c (V c)).1 .rfl

theorem exit4 (c : Dev nD) : iprop((dat4 V c).arrays ((dat4 V c).arrAt · cfg4.N) ∗ Pipeline.unscopedRest spec4 c (V c)) ⊢ (unscopedBufs c (exitV4 V c) : sProp 𝕄) := by
  rw [Pipeline.unscopedBufs_split₀ cfgs 4 winFacts₀4.arr_unscoped c (exitV4 V c)]
  refine sep_mono (.trans (.of_eq (congrArg _ (funext fun w => ?_))) (arrays4 V c (exitV4 V c)).2) (.of_eq ?_)
  · match w with
    | ⟨0, _⟩ => exact ((dat4 V c).arrAt_in 0 rfl _).trans (Function.update_of_ne (show main_v4_0 ≠ main_v5 by decide) _ _).symm
    | ⟨1, _⟩ => exact ((dat4 V c).arrAt_in 1 rfl _).trans (Function.update_of_ne (show main_v4_0 ≠ main_v5 by decide) _ _).symm
    | ⟨2, _⟩ => exact (Function.update_self main_v5 _ (V c)).symm
  · unfold Pipeline.unscopedRest
    exact bigSep_congr fun b hb => by
      have hb5 : b ≠ main_v5 := fun e => (Finset.mem_sdiff.mp hb).2 (e ▸ (by decide))
      rw [show exitV4 V c b = V c b from Function.update_of_ne hb5 _ _]

end Cert.KernelIdeal.Hand

end
-- ==== Proof.Chain.lean ====
import proofs.«141517_j31224412242681_1_alg».proof.Proof.F0
import proofs.«141517_j31224412242681_1_alg».proof.Proof.F1
import proofs.«141517_j31224412242681_1_alg».proof.Proof.F2
import proofs.«141517_j31224412242681_1_alg».proof.Proof.F3
import proofs.«141517_j31224412242681_1_alg».proof.Proof.F4
import proofs.«141517_j31224412242681_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- What core `c` holds between two items of @main when its buffers are at `W c`. -/
abbrev St (W : Dev nD → Valuation τ sig (Elt F)) (c : Dev nD) : sProp 𝕄 :=
  iprop(StableHlo.held (c : Thread nD τ) (Pipeline.ucRefs τ sig) (W c) ∗ R c)
/-- Buffer contents read at the TensorCore's references. -/
abbrev atTc (W : Dev nD → Valuation τ sig (Elt F)) : (c : Dev nD) → (b : Ref sig .tc) → Buf (Elt F) ((c : Thread nD τ).loc b) :=
  fun c b => W c b

section Next

variable {cfg : Cfg sig Λ₀} (d : (c : Dev nD) → Dat τ (Elt F) Unit ℕ (UR sig nD τ) ℕ cfg c) (W : Dev nD → Valuation τ sig (Elt F))

/-- The buffers after a region entered at `W`: each window's array at its final contents, every other buffer as entered. -/
def next (c : Dev nD) : Valuation τ sig (Elt F) := Pipeline.withArrays cfg.spec c (W c) fun w => (d c).arrAt w cfg.N

variable (hinj : Function.Injective (Pipeline.arrRef cfg.spec))
include hinj

theorem next_arr (c : Dev nD) (w : Fin cfg.W) : next d W c (Proc.devRef .tc (Pipeline.arrRef cfg.spec w)) = (d c).arrAt w cfg.N :=
  Pipeline.withArrays_arr _ hinj c _ _ w

/-- A buffer outside a list holding every output window's array leaves the region as it entered. -/
theorem next_keep (hA : ∀ c w, (d c).A w = atTc W c (Pipeline.arrRef cfg.spec w)) (outs : List (Ref sig .tc))
    (hout : ∀ w, (cfg.win w).isOut = true → Pipeline.arrRef cfg.spec w ∈ outs) (c : Dev nD) (b : Ref sig .tc) (hb : b ∉ outs) :
    next d W c (Proc.devRef .tc b) = W c (Proc.devRef .tc b) := by
  by_cases h : ∃ w, Pipeline.arrRef cfg.spec w = b
  · obtain ⟨w, rfl⟩ := h
    have hw : (cfg.win w).isOut = false := by
      cases e : (cfg.win w).isOut
      · rfl
      · exact absurd (hout w e) hb
    exact (next_arr d W hinj c w).trans (((d c).arrAt_in w hw _).trans (hA c w))
  · exact Pipeline.withArrays_of_ne _ c _ _ b fun w e => h ⟨w, e⟩

end Next

section Region

variable (pd : (p : Fin 5) → (c : Dev nD) → Dat τ (Elt F) Unit ℕ (UR sig nD τ) ℕ (cfgs p) c) (p : Fin 5)
  (V V' : Dev nD → Valuation τ sig (Elt F))

set_option backward.isDefEq.respectTransparency.types false in
/-- A region as an item of the run from `V` to `V'`, given how its arrays split off the buffers at `V` and join them at `V'`. -/
def regionOf (win : Pipeline.WinFacts₀ (cfgs p).spec)
    (block_pos : ∀ w : Fin (cfgs p).W, 0 < ((cfgs p).spec w).block.numel)
    (stage_whole : ∀ (w : Fin (cfgs p).W) (s : Fin ((cfgs p).spec w).nbuf),
      (((cfgs p).spec w).stage s).IsWhole)
    (hbody : ∀ c, Pipeline.BodyObligationLoose (pd p c) defs₀ 𝒱₀ () Set.univ) (howed : ∀ c t, (pd p c).owed t = 0)
    (hrec : ∀ c, (pd p c).recorded 0 = Set.univ)
    (hsplit : ∀ c, (unscopedBufs c (atTc V c) : sProp 𝕄)
      ⊢ iprop((pd p c).arrays ((pd p c).arrAt · 0) ∗ Pipeline.unscopedRest (cfgs p).spec c (atTc V c)))
    (hjoin : ∀ c, iprop((pd p c).arrays ((pd p c).arrAt · (cfgs p).N)
        ∗ Pipeline.unscopedRest (cfgs p).spec c (atTc V c)) ⊢ (unscopedBufs c (atTc V' c) : sProp 𝕄))
    (hin : ∀ c, (Pipeline.ΦA (cfgs p).spec c : sProp 𝕄) ⊢ (pd p c).Φ 0)
    (hout : ∀ c, (pd p c).Φ (Fin.last _) ⊢ (Pipeline.ΦA (cfgs p).spec c : sProp 𝕄)) :
    Pipeline.RegionSeg (pcfgs (F := F)) adm pd () defs₀ 𝒱₀ L lv p where
  win := win
  block_pos := block_pos
  stage_whole := stage_whole
  K := PEmpty
  osem k := k.elim
  ho := Pipeline.OwnSemFacts.none _
  hbody := hbody
  hwaits := Pipeline.hwaits_of_owed_zero _ _ _ _ L lv p howed
  pre := St V
  post := St V'
  X c := iprop(∃ r, prngReg c r)
  Y c := iprop(∃ r, prngReg c r)
  Z c := Pipeline.unscopedRest (Ix := Unit) (Name := ℕ) (U := UR sig nD τ) (Lvl := ℕ) (cfgs p).spec c (atTc V c)
  hentry c := by
    rw [Pipeline.ownSems0_none]
    have hs := hsplit c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c]; trivial)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hj := hjoin c
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
/-- The same for a region whose windows read distinct arrays: it is left at `next (pd p) V`. -/
def regionOfLaunch (lf : Pipeline.LaunchFacts (nD := nD) (τ := τ) cfgs p)
    (hbody : ∀ c, Pipeline.BodyObligationLoose (pd p c) defs₀ 𝒱₀ () Set.univ)
    (hq : ∀ c w, (pd p c).q w = fullShare) (howed : ∀ c t, (pd p c).owed t = 0) (hrec : ∀ c, (pd p c).recorded 0 = Set.univ)
    (hA : ∀ c w, (pd p c).A w = atTc V c (Pipeline.arrRef (cfgs p).spec w))
    (hin : ∀ c, (Pipeline.ΦA (cfgs p).spec c : sProp 𝕄) ⊢ (pd p c).Φ 0)
    (hout : ∀ c, (pd p c).Φ (Fin.last _) ⊢ (Pipeline.ΦA (cfgs p).spec c : sProp 𝕄)) :
    Pipeline.RegionSeg (pcfgs (F := F)) adm pd () defs₀ 𝒱₀ L lv p :=
  regionOf pd p V (next (pd p) V) lf.win.to₀ lf.block_pos lf.stage_whole hbody howed hrec
    (fun c => Pipeline.arrays_of_unscopedBufs (p := p) (pcfgs (F := F)) adm pd lf.win lf.arr_whole c ((pd p c).share_full (hq c)) (atTc V c) (hA c))
    (fun c => Pipeline.unscopedBufs_of_arrays (p := p) (pcfgs (F := F)) adm (Ix := Unit) (Name := ℕ) (U := UR sig nD τ) (Lvl := ℕ)
      lf.win lf.arr_whole c pd ((pd p c).share_full (hq c)) (atTc V c) (atTc (next (pd p) V) c) _
      (fun w => (next_arr (pd p) V lf.win.arr_inj c w).symm)
      (fun b hb => Pipeline.withArrays_of_ne _ c _ _ b fun w e => hb (Finset.mem_image.mpr ⟨w, Finset.mem_univ _, e⟩)))
    hin hout

end Region

variable (m : (ℓ : Loc nD τ sig) → Buf (Elt F) ℓ) (ρ : Dev nD → PrngReg)

/-! The buffer contents between the six items of @main, a fold from the launch memory: after `x · W_hidden`, after the hidden
layer, after packing `[W_mean | W_logstd]`, after the projection, after the two latent heads, after the Gram matrix. -/

abbrev wLaunch : Dev nD → Valuation τ sig (Elt F) := fun c b => (s₀ m ρ).mem ((c : Dev nD), b)
def wHid : Dev nD → Valuation τ sig (Elt F) := next (dat0 (atTc (wLaunch m ρ))) (wLaunch m ρ)
def wAct : Dev nD → Valuation τ sig (Elt F) := next (dat1 (atTc (wHid m ρ))) (wHid m ρ)
abbrev wCat : Dev nD → Valuation τ sig (Elt F) := fun c => StableHlo.after hostOps2 (wAct m ρ c)
def wProj : Dev nD → Valuation τ sig (Elt F) := next (dat2 (atTc (wCat m ρ))) (wCat m ρ)
def wLat : Dev nD → Valuation τ sig (Elt F) := next (dat3 (atTc (wProj m ρ))) (wProj m ρ)
def wGram (c : Dev nD) : Valuation τ sig (Elt F) :=
  Function.update (wLat m ρ c) (Proc.devRef .tc main_v5) ((dat4 (atTc (wLat m ρ)) c).arrAt 2 cfg4.N)

theorem wGram_eq_exit (c : Dev nD) : atTc (wGram m ρ) c = exitV4 (atTc (wLat m ρ)) c := by
  funext b
  unfold wGram exitV4
  by_cases h : b = main_v5
  · subst h
    exact (Function.update_self _ _ _).trans
      (Function.update_self (β := fun b : Ref sig .tc => Buf (Elt F) ((c : Thread nD τ).loc b)) main_v5 _ (atTc (wLat m ρ) c)).symm
  · exact (Function.update_of_ne (StableHlo.devRef_ne_of_ne h) _ _).trans
      (Function.update_of_ne (β := fun b : Ref sig .tc => Buf (Elt F) ((c : Thread nD τ).loc b)) h _ (atTc (wLat m ρ) c)).symm

/-- Every buffer an item may write. -/
abbrev written : List (Ref sig .tc) := [main_v0, main_v1, main_v2, main_v3, main_v4_0, main_v4_1, main_v5]

section Kept

variable (c : Dev nD) (b : Ref sig .tc) (hb : b ∉ written)
include hb

/-! A buffer no item writes (an argument, above all) holds its launch contents at every boundary. -/
theorem wHid_kept : wHid m ρ c b = m ((c : Thread nD τ).loc b) :=
  next_keep _ _ launch0.win.arr_inj (A_eq0 _) written (by decide) c b hb
theorem wAct_kept : wAct m ρ c b = m ((c : Thread nD τ).loc b) :=
  (next_keep _ _ launch1.win.arr_inj (A_eq1 _) written (by decide) c b hb).trans (wHid_kept m ρ c b hb)
theorem wCat_kept : wCat m ρ c b = m ((c : Thread nD τ).loc b) :=
  (StableHlo.after_of_writes_sub hostOps2 _ hostOps2_writes fun h => hb ((by decide : ∀ x ∈ hostOps2_W, x ∈ written) b h)).trans
    (wAct_kept m ρ c b hb)
theorem wProj_kept : wProj m ρ c b = m ((c : Thread nD τ).loc b) :=
  (next_keep _ _ launch2.win.arr_inj (A_eq2 _) written (by decide) c b hb).trans (wCat_kept m ρ c b hb)
theorem wLat_kept : wLat m ρ c b = m ((c : Thread nD τ).loc b) :=
  (next_keep _ _ launch3.win.arr_inj (A_eq3 _) written (by decide) c b hb).trans (wProj_kept m ρ c b hb)
theorem wGram_kept : wGram m ρ c b = m ((c : Thread nD τ).loc b) :=
  (Function.update_of_ne (StableHlo.devRef_ne_of_ne (show b ≠ main_v5 from fun e => hb (e ▸ (by decide : main_v5 ∈ written)))) _ _).trans (wLat_kept m ρ c b hb)

end Kept

/-! The regions and @main as the run of its items. -/

def pdats : (p : Fin 5) → (c : Dev nD) → Dat τ (Elt F) Unit ℕ (UR sig nD τ) ℕ (cfgs p) c
  | ⟨0, _⟩ => dat0 (atTc (wLaunch m ρ))
  | ⟨1, _⟩ => dat1 (atTc (wHid m ρ))
  | ⟨2, _⟩ => dat2 (atTc (wCat m ρ))
  | ⟨3, _⟩ => dat3 (atTc (wProj m ρ))
  | ⟨4, _⟩ => dat4 (atTc (wLat m ρ))

set_option backward.isDefEq.respectTransparency.types false in
abbrev segs : List (Pipeline.Seg (pcfgs (F := F)) adm (pdats m ρ) () defs₀ 𝒱₀ L lv) :=
  [ .region (regionOfLaunch (pdats m ρ) 0 (wLaunch m ρ) launch0 (fun c => (body_obligation0 _ c).loose) (fun _ _ => rfl) (fun _ _ => rfl) (fun _ => rfl)
      (A_eq0 _) (hin0 _) (hout0 _)),
    .region (regionOfLaunch (pdats m ρ) 1 (wHid m ρ) launch1 (fun c => (body_obligation1 _ c).loose) (fun _ _ => rfl) (fun _ _ => rfl) (fun _ => rfl)
      (A_eq1 _) (hin1 _) (hout1 _)),
    .host (Pipeline.HostSeg.ofOps _ _ _ _ _ (Pipeline.ucRefs τ sig) hostOps2
      (fun op h => Pipeline.sub_ucRefs op ((List.forall_iff_forall_mem.mp hostOps2_sub) op h))
      (fun op h => (List.forall_iff_forall_mem.mp hostOps2_fresh) op h) (wAct m ρ) R),
    .region (regionOfLaunch (pdats m ρ) 2 (wCat m ρ) launch2 (fun c => (body_obligation2 _ c).loose) (fun _ _ => rfl) (fun _ _ => rfl) (fun _ => rfl)
      (A_eq2 _) (hin2 _) (hout2 _)),
    .region (regionOfLaunch (pdats m ρ) 3 (wProj m ρ) launch3 (fun c => (body_obligation3 _ c).loose) (fun _ _ => rfl) (fun _ _ => rfl) (fun _ => rfl)
      (A_eq3 _) (hin3 _) (hout3 _)),
    .region (regionOf (pdats m ρ) 4 (wLat m ρ) (wGram m ρ) winFacts₀4 block_pos4 stage_whole4 (fun c => (body_obligation4 _ c).loose)
      (fun _ _ => rfl) (fun _ => rfl) (entry4 _) (fun c => by rw [wGram_eq_exit]; exact exit4 _ c) (hin4 _) (hout4 _)) ]

theorem main_run (c : Dev nD) : main (F := F) c = Pipeline.Seg.run (segs m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair run of @main ends, nothing faulting, with the results at the last boundary's contents and each argument as launched. -/
theorem run_named : θ_run defs (onTc (τ := τ) (main (F := F))) ⟨m, fun _ => 0, ρ⟩ (fun r => ∀ c : Dev nD,
      r.2.mem ((c.tc : Thread nD τ).loc main_v5) = wGram m ρ c main_v5
      ∧ r.2.mem ((c.tc : Thread nD τ).loc main_v4_0) = wGram m ρ c main_v4_0
      ∧ r.2.mem ((c.tc : Thread nD τ).loc main_v4_1) = wGram m ρ c main_v4_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (wLaunch m ρ))
    (Tₙ := fun c => iprop(StableHlo.held (c : Thread nD τ) (Pipeline.ucRefs τ sig) (wGram m ρ c) ∗ ∃ r, prngReg c r))
    (hch := ⟨fun _ => .rfl, fun _ => .rfl, fun _ => .rfl, fun _ => .rfl, fun _ => .rfl, fun _ => .rfl, fun c => show (St (wGram m ρ) c : sProp 𝕄) ⊢ _ from by
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (wLaunch m ρ c)
        from Pipeline.unscopedBufs_held c (wLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = wGram m ρ c b)
    (hfin := fun c s' => by
      iintro ⟨⟨Hh, -⟩, HSI⟩
      unfold StableHlo.held
      imodintro
      iapply (pointsTo_read_all (Pipeline.ucRefs τ sig) (fun b => (((c : Thread nD τ)).1, b)) (wGram m ρ c) s')
      isplitl [Hh] <;> iassumption)
    (hQ := fun s h c =>
      have k (b : Ref sig .tc) (hs : ¬ (Proc.devRef .tc b : DevRef τ sig).isScoped) (hb : b ∉ written) :=
        (h c _ (mem_uc b hs)).trans (wGram_kept m ρ c b hb)
      ⟨h c _ (mem_uc main_v5 (by decide)), h c _ (mem_uc main_v4_0 (by decide)), h c _ (mem_uc main_v4_1 (by decide)),
       k main_arg0 (by decide) (by decide), k main_arg1 (by decide) (by decide), k main_arg2 (by decide) (by decide),
       k main_arg3 (by decide) (by decide), k main_arg4 (by decide) (by decide)⟩)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2.2.2) (run_named m ρ)

end Cert.KernelIdeal.Hand

end
-- ==== Proof.LibPlainDot.lean ====
import Idealize.ShloMosaic.PureOps.Dims
import Idealize.ShloMosaic.Lib.ValueIdx

/-! A contraction of a [R, K] array with a rank-2 array over one axis of each, no batch axis: its sum over the contraction's own
index type, at the result index (p, q), is a plain sum over k < K.  Stated at abstract extents and for any such dimension record. -/

namespace PlainDot

open Idealize.ShloMosaic Idealize.ShloMosaic.ValueIdx

variable {R K C : Nat} {Sr : Shape}

theorem coord_val_congr {s : Shape} (j : s.Idx) (a b : Nat) (ha : a < s.rank) (hb : b < s.rank) (h : a = b) :
    (j ⟨a, ha⟩).val = (j ⟨b, hb⟩).val := by
  subst h; rfl

/-- The left operand's axis 0, its only non-contracting axis, reads the result index's coordinate 0. -/
theorem lhs_val_0 (d : DotDims ⟨2, ![R, K]⟩ Sr ⟨2, ![R, C]⟩) (hlb : d.lhsBatch = []) (hln : d.lhsNonContracting = [0])
    (j : (⟨2, ![R, C]⟩ : Shape).Idx) (k : d.contr.Idx) : (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The right operand's only non-contracting axis `a` reads the result index's coordinate 1. -/
theorem rhs_val_nc (d : DotDims ⟨2, ![R, K]⟩ Sr ⟨2, ![R, C]⟩) (a : Fin Sr.rank) (hrb : d.rhsBatch = []) (hrn : d.rhsNonContracting = [a])
    (hlb : d.lhsBatch = []) (hln : d.lhsNonContracting = [0]) (j : (⟨2, ![R, C]⟩ : Shape).Idx) (k : d.contr.Idx) :
    (d.rhsIdx j k a).val = (j (1 : Fin 2)).val := by
  have hb : ¬ a ∈ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ Sr ⟨2, ![R, C]⟩)
    (hlb : d.lhsBatch = []) (hln : d.lhsNonContracting = [0]) (hlc : d.lhsContracting = [1])
    (hr : d.contr.rank = 1) (hs : d.contr.size ⟨0, by omega⟩ = K) (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (d.lhsIdx_val_of_single hlc (ix2 p q) _).trans (contrEquiv1_symm_val d K hr hs k)

/-- The contraction sum carried along the bijection of the contraction's index type with the numbers below `K`. -/
theorem sum_of {M : Type} [AddCommMonoid M] [Mul M] (d : DotDims ⟨2, ![R, K]⟩ Sr ⟨2, ![R, C]⟩)
    (hlb : d.lhsBatch = []) (hln : d.lhsNonContracting = [0]) (hlc : d.lhsContracting = [1])
    (l : (⟨2, ![R, K]⟩ : Shape).Idx → M) (r : Sr.Idx → M) (p : Fin R) (q : Fin C) (ri : Fin K → Sr.Idx)
    (hri : ∀ (hr : d.contr.rank = 1) (hs : d.contr.size ⟨0, by omega⟩ = K) (k : Fin K),
      d.rhsIdx (ix2 p q) ((contrEquiv1 d K hr hs).symm k) = ri k) :
    ∑ k : d.contr.Idx, l (d.lhsIdx (ix2 p q) k) * r (d.rhsIdx (ix2 p q) k) = ∑ k : Fin K, l (ix2 p k) * r (ri k) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, hri hr hs k]

/-- A [R, K] array times a [K, C] array: the sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) :=
  sum_of d hlb hln hlc l r p q (fun k => ix2 k q) fun hr hs k => by
    funext a
    apply Fin.ext
    match a with
    | ⟨0, _⟩ => exact (d.rhsIdx_val_of_single hrc (ix2 p q) _).trans (contrEquiv1_symm_val d K hr hs k)
    | ⟨1, _⟩ => exact rhs_val_nc d 1 hrb hrn hlb hln (ix2 p q) _

end PlainDot
-- ==== Proof.Val0.lean ====
import proofs.«141517_j31224412242681_1_alg».proof.Proof.F0
import proofs.«141517_j31224412242681_1_alg».proof.Proof.LibPlainDot
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.ShloMosaic.ValueIdx
open Cert.KernelIdeal.Gen

-- Narrowing changes no ideal number, and a product added to zero is the plain contraction sum.
theorem pay0_apply (x0 : Vec Ideal S2048x512 .f32) (x1 : Vec Ideal S512x256 .f32) (y : S2048x256.Idx) :
    k0_pay2 x0 x1 (k0_pay1 (F := Ideal)) y = ∑ k : Fin 512, x0 (ix2 (y 0) k) * x1 (ix2 k (y 1)) := by
  obtain ⟨p, q, rfl⟩ : ∃ p q, y = ix2 p q := ⟨y 0, y 1, eq_ix2 y⟩
  unfold k0_pay2 k0_pay1
  simp only [shapeCast_self]
  refine (addf_apply _ _ (ix2 p q)).trans ?_
  refine (congrArg₂ (· + ·) (show (broadcast S2048x256 (Scalar.ofBits (F := Ideal) .f32 0x00000000#32) : FVec Ideal S2048x256 .f32) (ix2 p q) = 0 from Ideal.ofBits_zero_f32)
    (Ideal.matmul_constant_zero_apply dot_S2048x512_S512x256_S2048x256_1_0_0_1_n_n none _ _ (ix2 p q))).trans ((zero_add _).trans ?_)
  exact PlainDot.sum_eq (R := 2048) (K := 512) (C := 256) dot_S2048x512_S512x256_S2048x256_1_0_0_1_n_n rfl rfl rfl rfl rfl rfl _ _ p q

-- Point t takes row block t of the left array and the whole right array, and writes row block t of the result.
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

abbrev xArr (c : Dev nD) : Vec Ideal S8192x512 .f32 := V c main_arg0
abbrev wArr (c : Dev nD) : Vec Ideal S512x256 .f32 := V c main_arg2

-- The matrix product of the two arrays.
def prod0 (c : Dev nD) : Vec Ideal S8192x256 .f32 := fun i => ∑ k : Fin 512, xArr V c (ix2 (i 0) k) * wArr V c (ix2 k (i 1))

-- Point t's output block is block t of the matrix product.
theorem flushed0_eq (c : Dev nD) (t : Fin cfg0.N) :
    (dat0 V c).flushed 2 t = ((cfg0.win 2).blk t).view.read (Elt Ideal) (prod0 V c) := by
  obtain ⟨e0, e1, e2, e3, e4, e5⟩ := idx_facts0 t
  funext j
  refine (pay0_apply (iblk0 V c 0 t) (iblk0 V c 1 t) j).trans ?_
  show _ = ∑ k : Fin 512, xArr V c (ix2 ((((cfg0.win 2).blk t).view.emb j) 0) k) * wArr V c (ix2 k ((((cfg0.win 2).blk t).view.emb j) 1))
  refine Finset.sum_congr rfl fun k _ => ?_
  show xArr V c (((cfg0.win 0).blk t).view.emb (ix2 (j 0) k)) * wArr V c (((cfg0.win 1).blk t).view.emb (ix2 k (j 1))) = _
  congr 2 <;> refine Shape.idx_ext₂ ?_ ?_
  · show win0_0.index t (0 : Fin 2) * 2048 + 1 * (j 0).val = win0_2.index t (0 : Fin 2) * 2048 + 1 * (j 0).val; omega
  · show win0_0.index t (1 : Fin 2) * 512 + 1 * k.val = k.val; omega
  · show win0_1.index t (0 : Fin 2) * 512 + 1 * k.val = k.val; omega
  · show win0_1.index t (1 : Fin 2) * 256 + 1 * (j 1).val = win0_2.index t (1 : Fin 2) * 256 + 1 * (j 1).val; omega

-- Row p of the result lies in the block of point p / 2048.
theorem cover0 (i : S8192x256.Idx) : ∃ t : Fin cfg0.N, (cfg0.win 2).flush t = true ∧ i ∈ ((cfg0.win 2).blk t).view.set := by
  have hi0 : (i 0).val < 8192 := idx2_lt0 i
  have hi1 : (i 1).val < 256 := idx2_lt1 i
  obtain ⟨t, ht⟩ : ∃ t : Fin cfg0.N, t.val = (i 0).val / 2048 :=
    ⟨⟨(i 0).val / 2048, lt_of_lt_of_eq (by omega : (i 0).val / 2048 < 4) N_0.symm⟩, rfl⟩
  obtain ⟨-, -, -, -, e4, e5⟩ := idx_facts0 t
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

theorem final0 (c : Dev nD) (p : Fin 8192) (q : Fin 256) :
    (dat0 V c).arrAt 2 cfg0.N (ix2 p q) = ∑ k : Fin 512, xArr V c (ix2 p k) * wArr V c (ix2 k q) :=
  congrFun ((dat0 V c).arrAt_eq_of_cover 2 (prod0 V c) (fun t _ => flushed0_eq V c t) cover0) (ix2 p q)

end Cert.KernelIdeal.Hand

end
-- ==== Proof.LibBlockSum.lean ====
import Mathlib.Algebra.BigOperators.Fin
import Mathlib.Logic.Equiv.Fin.Basic

namespace BlockSum

theorem pos_lt {a b : ℕ} (j : Fin a) (kk : Fin b) : j.val * b + kk.val < a * b :=
  calc j.val * b + kk.val < j.val * b + b := Nat.add_lt_add_left kk.isLt _
    _ = (j.val + 1) * b := (Nat.succ_mul _ _).symm
    _ ≤ a * b := Nat.mul_le_mul_right b j.isLt

/-- A sum over the positions below `a * b` is the sum over the `a` blocks of the sums inside each block of `b` positions. -/
theorem sum_blocks {M : Type} [AddCommMonoid M] (a b : ℕ) (f : Fin (a * b) → M) :
    ∑ k : Fin (a * b), f k = ∑ j : Fin a, ∑ kk : Fin b, f ⟨j.val * b + kk.val, pos_lt j kk⟩ := by
  rw [← Finset.sum_product', Finset.univ_product_univ]
  refine (Fintype.sum_equiv finProdFinEquiv.symm _ _ fun k => ?_)
  apply congrArg f
  apply Fin.ext
  simp only [finProdFinEquiv_symm_apply, Fin.coe_divNat, Fin.coe_modNat]
  exact (Nat.div_add_mod' k.val b).symm

end BlockSum
-- ==== Proof.Val1.lean ====
import proofs.«141517_j31224412242681_1_alg».proof.Proof.F1
import Idealize.ShloMosaic.Lib.ValueIdx
import Idealize.ShloMosaic.PureOps.Ideal.Laws
import proofs.«141517_j31224412242681_1_alg».proof.Proof.LibPlainDot
import proofs.«141517_j31224412242681_1_alg».proof.Proof.LibBlockSum

noncomputable section

namespace Cert.KernelIdeal.Hand

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen

theorem pay1_apply1 (p : Fin 1024) (q : Fin 256) : (k1_pay1 (F := Ideal)) (ix2 p q) = 0 := by
  unfold k1_pay1
  simp only [shapeCast_self]
  exact Ideal.ofBits_zero_f32

/-- Entry by entry over the extended reals: what was held plus the row-by-column product of the two blocks. -/
theorem pay2_apply1 (x0 : Vec Ideal S1024x1024 .f32) (x1 xs : Vec Ideal S1024x256 .f32) (p : Fin 1024) (q : Fin 256) :
    k1_pay2 x0 x1 xs (ix2 p q) = xs (ix2 p q) + ∑ kk : Fin 1024, x0 (ix2 p kk) * x1 (ix2 kk q) := by
  unfold k1_pay2
  simp only [shapeCast_self]
  refine (addf_apply _ _ _).trans (congrArg (xs (ix2 p q) + ·) ?_)
  exact (Ideal.matmul_constant_zero_apply dot_S1024x1024_S1024x256_S1024x256_1_0_0_1_n_n none _ _ (ix2 p q)).trans
    (PlainDot.sum_eq dot_S1024x1024_S1024x256_S1024x256_1_0_0_1_n_n rfl rfl rfl rfl rfl rfl x0 x1 p q)

variable (V : (c : Dev nD) → (b : Ref sig .tc) → Buf (Elt Ideal) ((c : Thread nD τ).loc b))

abbrev adjArr1 (c : Dev nD) : Vec Ideal S8192x8192 .f32 := V c main_arg1
abbrev supArr1 (c : Dev nD) : Vec Ideal S8192x256 .f32 := V c main_v0

/-- Point `t = 8 i + k` works on block `(i, k)` of the matrix, block `(k, 0)` of the support and block `(i, 0)` of the result. -/
theorem idx_facts1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

theorem adjBlk_apply1 (c : Dev nD) (t : Fin cfg1.N) (p kk : Fin 1024) (r k : Fin 8192)
    (hr : r.val = 1024 * (t.val / 8) + p.val) (hk : k.val = 1024 * (t.val % 8) + kk.val) :
    iblk1 V c 0 t (ix2 p kk) = adjArr1 V c (ix2 r k) := by
  obtain ⟨e0, e1, -⟩ := idx_facts1 t
  unfold iblk1
  rw [View.read_apply]
  show V c main_arg1 _ = V c main_arg1 _
  congr 1
  funext a
  apply Fin.ext
  match a with
  | ⟨0, _⟩ => show win1_0.index t 0 * 1024 + 1 * p.val = r.val; rw [e0, hr]; omega
  | ⟨1, _⟩ => show win1_0.index t 1 * 1024 + 1 * kk.val = k.val; rw [e1, hk]; omega

theorem supBlk_apply1 (c : Dev nD) (t : Fin cfg1.N) (kk : Fin 1024) (q : Fin 256) (k : Fin 8192)
    (hk : k.val = 1024 * (t.val % 8) + kk.val) :
    iblk1 V c 1 t (ix2 kk q) = supArr1 V c (ix2 k q) := by
  obtain ⟨-, -, e2, e3, -⟩ := idx_facts1 t
  unfold iblk1
  rw [View.read_apply]
  show V c main_v0 _ = V c main_v0 _
  congr 1
  funext a
  apply Fin.ext
  match a with
  | ⟨0, _⟩ => show win1_1.index t 0 * 1024 + 1 * kk.val = k.val; rw [e2, hk]; omega
  | ⟨1, _⟩ => show win1_1.index t 1 * 256 + 1 * q.val = q.val; rw [e3]; omega

/-- The part of entry `(r, q)` of the product that comes from contraction positions `1024 j … 1024 j + 1023`. -/
def blockDot1 (c : Dev nD) (r : Fin 8192) (j : ℕ) (q : Fin 256) : EReal :=
  if h : j < 8 then
    ∑ kk : Fin 1024, adjArr1 V c (ix2 r (⟨j * 1024 + kk.val, by have := kk.isLt; omega⟩ : Fin 8192))
      * supArr1 V c (ix2 (⟨j * 1024 + kk.val, by have := kk.isLt; omega⟩ : Fin 8192) q)
  else 0

theorem blocks_sum1 (c : Dev nD) (r : Fin 8192) (q : Fin 256) :
    ∑ j ∈ Finset.range 8, blockDot1 V c r j q = ∑ k : Fin 8192, adjArr1 V c (ix2 r k) * supArr1 V c (ix2 k q) := by
  rw [Finset.sum_range (fun j => blockDot1 V c r j q)]
  refine Eq.trans ?_ (BlockSum.sum_blocks (M := EReal) 8 1024 (fun k : Fin 8192 => adjArr1 V c (ix2 r k) * supArr1 V c (ix2 k q))).symm
  refine Finset.sum_congr rfl fun j _ => ?_
  unfold blockDot1
  rw [dif_pos j.isLt]

/-- One point's update of the accumulator: the partial product of the point's column block, added onto zero at the start of a row block. -/
theorem acc_apply1 (c : Dev nD) (t : Fin cfg1.N) (p : Fin 1024) (q : Fin 256) (r : Fin 8192) (hr : r.val = 1024 * (t.val / 8) + p.val) :
    acc1 V c t.val (ix2 p q) = (if t.val % 8 = 0 then 0 else acc1 V c (t.val - 1) (ix2 p q)) + blockDot1 V c r (t.val % 8) q := by
  rw [acc1_eq, pay2_apply1]
  congr 1
  · by_cases h0 : t.val % 8 = 0
    · rw [if_pos h0, if_pos h0, pay1_apply1]
    · rw [if_neg h0, if_neg h0]
  · unfold blockDot1
    rw [dif_pos (Nat.mod_lt _ (by norm_num))]
    refine Finset.sum_congr rfl fun kk _ => ?_
    rw [adjBlk_apply1 V c t p kk r ⟨t.val % 8 * 1024 + kk.val, by have := kk.isLt; omega⟩ hr (by simp only; omega),
      supBlk_apply1 V c t kk q ⟨t.val % 8 * 1024 + kk.val, by have := kk.isLt; omega⟩ (by simp only; omega)]

/-- After point `n = 8 i + k` the accumulator holds the partial products of row block `i` over the column blocks `0 … k`. -/
theorem acc_sum1 (c : Dev nD) (n : ℕ) (hn : n < cfg1.N) (p : Fin 1024) (q : Fin 256) (r : Fin 8192) (hr : r.val = 1024 * (n / 8) + p.val) :
    acc1 V c n (ix2 p q) = ∑ j ∈ Finset.range (n % 8 + 1), blockDot1 V c r j q := by
  refine (acc_apply1 V c ⟨n, hn⟩ p q r hr).trans ?_
  dsimp only
  by_cases h0 : n % 8 = 0
  · rw [if_pos h0, h0, zero_add]; exact (Finset.sum_range_one fun j => blockDot1 V c r j q).symm
  · rw [if_neg h0, acc_sum1 c (n - 1) (by omega) p q r (by rw [hr]; congr 2; omega), show n % 8 = (n - 1) % 8 + 1 by omega]
    exact (Finset.sum_range_succ (fun j => blockDot1 V c r j q) _).symm
termination_by n
decreasing_by omega

/-- `max (adj · support) 0`, entry by entry. -/
def hidden1 (c : Dev nD) : Vec Ideal S8192x256 .f32 := fun i =>
  max (∑ k : Fin 8192, adjArr1 V c (ix2 (i 0) k) * supArr1 V c (ix2 k (i 1))) (Scalar.ofBits (F := Ideal) .f32 0x00000000#32)

/-- At the end of a row block the eight partial products are the whole contraction, and the output buffer gets it rectified. -/
theorem outBlk_apply1 (c : Dev nD) (t : Fin cfg1.N) (h1 : t.val % 8 = 7) (p : Fin 1024) (q : Fin 256) (r : Fin 8192)
    (hr : r.val = 1024 * (t.val / 8) + p.val) : k1_pay3 (acc1 V c t.val) (ix2 p q) = hidden1 V c (ix2 r q) := by
  show max (acc1 V c t.val (ix2 p q)) _ = max _ _
  rw [acc_sum1 V c t.val t.isLt p q r hr, h1]
  exact congrArg (max · _) (blocks_sum1 V c r q)

/-- At the end of row block `i` the output holds rows `1024 i …` of `hidden1`. -/
theorem flushed_eq1 (c : Dev nD) (t : Fin cfg1.N) (hf : (cfg1.win 2).flush t = true) :
    (dat1 V c).flushed 2 t = ((cfg1.win 2).blk t).view.read (Elt Ideal) (hidden1 V c) := by
  have h1 : t.val % 8 = 7 := (flush1_2 t).mp hf
  obtain ⟨-, -, -, -, e4, e5⟩ := idx_facts1 t
  show (cfg1.win 2).cut (grid1.coords t) (k1_pay3 (acc1 V c t.val)) = _
  funext y
  rw [View.read_apply]
  have hy0 : (y 0).val < 1024 := (y 0).isLt
  have hy1 : (y 1).val < 256 := (y 1).isLt
  have hN : t.val < 64 := lt_of_lt_of_eq t.isLt (show cfg1.N = 64 from N_1)
  show k1_pay3 (acc1 V c t.val) y = hidden1 V c (((cfg1.win 2).blk t).view.emb y)
  have ey : y = ix2 (⟨(y 0).val, hy0⟩ : Fin 1024) (⟨(y 1).val, hy1⟩ : Fin 256) := by
    funext a; match a with | ⟨0, _⟩ => rfl | ⟨1, _⟩ => rfl
  have ee : ((cfg1.win 2).blk t).view.emb y = ix2 (⟨1024 * (t.val / 8) + (y 0).val, by omega⟩ : Fin 8192) (⟨(y 1).val, hy1⟩ : Fin 256) := by
    funext a; apply Fin.ext
    match a with
    | ⟨0, _⟩ => show win1_2.index t 0 * 1024 + 1 * (y 0).val = 1024 * (t.val / 8) + (y 0).val; rw [e4]; omega
    | ⟨1, _⟩ => show win1_2.index t 1 * 256 + 1 * (y 1).val = (y 1).val; rw [e5]; omega
  rw [ee]
  exact (congrArg _ ey).trans (outBlk_apply1 V c t h1 ⟨(y 0).val, hy0⟩ ⟨(y 1).val, hy1⟩ ⟨_, by omega⟩ rfl)

theorem mem_blk1 (t : Fin cfg1.N) (i : S8192x256.Idx) :
    i ∈ ((cfg1.win 2).blk t).view.set ↔ ∀ a : Fin 2, win1_2.index t a * S1024x256.size a ≤ (i a).val ∧ (i a).val < win1_2.index t a * S1024x256.size a + S1024x256.size a := by
  show i ∈ ((View.whole main_v1).slice (win1_2.rect t)).set ↔ _
  rw [View.set_slice_whole, Rect.mem_set_unit]
  exact Iff.rfl

/-- Every row of the result lies in a row block, whose last point produces it: the result is `hidden1`. -/
theorem final1_arr (c : Dev nD) : (dat1 V c).arrAt 2 cfg1.N = hidden1 V c :=
  (dat1 V c).arrAt_eq_of_cover 2 (hidden1 V c) (flushed_eq1 V c) fun i => by
    have hi0 : (i 0).val < 8192 := (i 0).isLt
    have hi1 : (i 1).val < 256 := (i 1).isLt
    have hN : cfg1.N = 64 := N_1
    refine ⟨⟨8 * ((i 0).val / 1024) + 7, by omega⟩, (flush1_2 _).mpr (by dsimp only; omega), ?_⟩
    rw [mem_blk1]
    obtain ⟨-, -, -, -, e4, e5⟩ := idx_facts1 ⟨8 * ((i 0).val / 1024) + 7, by omega⟩
    intro a
    match a with
    | ⟨0, _⟩ =>
      show win1_2.index _ 0 * 1024 ≤ (i 0).val ∧ (i 0).val < win1_2.index _ 0 * 1024 + 1024
      rw [e4]; dsimp only; omega
    | ⟨1, _⟩ =>
      show win1_2.index _ 1 * 256 ≤ (i 1).val ∧ (i 1).val < win1_2.index _ 1 * 256 + 256
      rw [e5]; omega

theorem final1 (c : Dev nD) (p : Fin 8192) (q : Fin 256) :
    (dat1 V c).arrAt 2 cfg1.N (ix2 p q)
      = max (∑ k : Fin 8192, adjArr1 V c (ix2 p k) * supArr1 V c (ix2 k q)) (Scalar.ofBits (F := Ideal) .f32 0x00000000#32) :=
  congrFun (final1_arr V c) (ix2 p q)

end Cert.KernelIdeal.Hand

end
-- ==== Proof.Val2.lean ====
import proofs.«141517_j31224412242681_1_alg».proof.Proof.F2
import proofs.«141517_j31224412242681_1_alg».proof.Proof.LibPlainDot
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.ShloMosaic.ValueIdx
open Cert.KernelIdeal.Gen

-- Narrowing changes no ideal number, and a product added to zero is the plain contraction sum.
theorem pay2_apply (x0 : Vec Ideal S2048x256 .f32) (x1 : Vec Ideal S256x128 .f32) (y : S2048x128.Idx) :
    k2_pay2 x0 x1 (k2_pay1 (F := Ideal)) y = ∑ k : Fin 256, x0 (ix2 (y 0) k) * x1 (ix2 k (y 1)) := by
  obtain ⟨p, q, rfl⟩ : ∃ p q, y = ix2 p q := ⟨y 0, y 1, eq_ix2 y⟩
  unfold k2_pay2 k2_pay1
  simp only [shapeCast_self]
  refine (addf_apply _ _ (ix2 p q)).trans ?_
  refine (congrArg₂ (· + ·) (show (broadcast S2048x128 (Scalar.ofBits (F := Ideal) .f32 0x00000000#32) : FVec Ideal S2048x128 .f32) (ix2 p q) = 0 from Ideal.ofBits_zero_f32)
    (Ideal.matmul_constant_zero_apply dot_S2048x256_S256x128_S2048x128_1_0_0_1_n_n none _ _ (ix2 p q))).trans ((zero_add _).trans ?_)
  exact PlainDot.sum_eq (R := 2048) (K := 256) (C := 128) dot_S2048x256_S256x128_S2048x128_1_0_0_1_n_n rfl rfl rfl rfl rfl rfl _ _ p q

-- Point t takes row block t of the left array and the whole right array, and writes row block t of the result.
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

abbrev lhsArr2 (c : Dev nD) : Vec Ideal S8192x256 .f32 := V c main_v1
abbrev rhsArr2 (c : Dev nD) : Vec Ideal S256x128 .f32 := V c main_v2

-- The matrix product of the two arrays.
def prod2 (c : Dev nD) : Vec Ideal S8192x128 .f32 := fun i => ∑ k : Fin 256, lhsArr2 V c (ix2 (i 0) k) * rhsArr2 V c (ix2 k (i 1))

-- Point t's output block is block t of the matrix product.
theorem flushed2_eq (c : Dev nD) (t : Fin cfg2.N) :
    (dat2 V c).flushed 2 t = ((cfg2.win 2).blk t).view.read (Elt Ideal) (prod2 V c) := by
  obtain ⟨e0, e1, e2, e3, e4, e5⟩ := idx_facts2 t
  funext j
  refine (pay2_apply (iblk2 V c 0 t) (iblk2 V c 1 t) j).trans ?_
  show _ = ∑ k : Fin 256, lhsArr2 V c (ix2 ((((cfg2.win 2).blk t).view.emb j) 0) k) * rhsArr2 V c (ix2 k ((((cfg2.win 2).blk t).view.emb j) 1))
  refine Finset.sum_congr rfl fun k _ => ?_
  show lhsArr2 V c (((cfg2.win 0).blk t).view.emb (ix2 (j 0) k)) * rhsArr2 V c (((cfg2.win 1).blk t).view.emb (ix2 k (j 1))) = _
  congr 2 <;> refine Shape.idx_ext₂ ?_ ?_
  · show win2_0.index t (0 : Fin 2) * 2048 + 1 * (j 0).val = win2_2.index t (0 : Fin 2) * 2048 + 1 * (j 0).val; omega
  · show win2_0.index t (1 : Fin 2) * 256 + 1 * k.val = k.val; omega
  · show win2_1.index t (0 : Fin 2) * 256 + 1 * k.val = k.val; omega
  · show win2_1.index t (1 : Fin 2) * 128 + 1 * (j 1).val = win2_2.index t (1 : Fin 2) * 128 + 1 * (j 1).val; omega

-- Row p of the result lies in the block of point p / 2048.
theorem cover2 (i : S8192x128.Idx) : ∃ t : Fin cfg2.N, (cfg2.win 2).flush t = true ∧ i ∈ ((cfg2.win 2).blk t).view.set := by
  have hi0 : (i 0).val < 8192 := idx2_lt0 i
  have hi1 : (i 1).val < 128 := idx2_lt1 i
  obtain ⟨t, ht⟩ : ∃ t : Fin cfg2.N, t.val = (i 0).val / 2048 :=
    ⟨⟨(i 0).val / 2048, lt_of_lt_of_eq (by omega : (i 0).val / 2048 < 4) N_2.symm⟩, rfl⟩
  obtain ⟨-, -, -, -, e4, e5⟩ := idx_facts2 t
  refine ⟨t, flush2_2 t, ?_⟩
  show i ∈ ((View.whole main_v3).slice (win2_2.rect t)).set
  rw [View.set_slice_whole, Rect.mem_set_unit]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 128 ≤ (i 1).val ∧ (i 1).val < win2_2.index t (1 : Fin 2) * 128 + 128; omega

theorem final2 (c : Dev nD) (p : Fin 8192) (q : Fin 128) :
    ((dat2 V c).arrAt 2 cfg2.N : Vec Ideal S8192x128 .f32) (ix2 p q) = ∑ k : Fin 256, lhsArr2 V c (ix2 p k) * rhsArr2 V c (ix2 k q) :=
  congrFun ((dat2 V c).arrAt_eq_of_cover 2 (prod2 V c) (fun t _ => flushed2_eq V c t) cover2) (ix2 p q)

end Cert.KernelIdeal.Hand

end
-- ==== Proof.Val3.lean ====
import proofs.«141517_j31224412242681_1_alg».proof.Proof.F3
import proofs.«141517_j31224412242681_1_alg».proof.Proof.LibPlainDot
import proofs.«141517_j31224412242681_1_alg».proof.Proof.LibBlockSum
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Hand

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

namespace R3

-- The reset block is zero.
theorem pay1_apply (p : Fin 1024) (q : Fin 128) : (k3_pay1 (F := Ideal)) (ix2 p q) = 0 := by
  unfold k3_pay1
  exact (congrFun (shapeCast_self _ _) (ix2 p q)).trans Ideal.ofBits_zero_f32

-- The step: what the accumulator held plus the product of the two blocks, a sum over the 1024 inner positions.
theorem pay2_apply (x0 : Vec Ideal S1024x1024 .f32) (x1 xs : Vec Ideal S1024x128 .f32) (p : Fin 1024) (q : Fin 128) :
    k3_pay2 x0 x1 xs (ix2 p q) = xs (ix2 p q) + ∑ kk : Fin 1024, x0 (ix2 p kk) * x1 (ix2 kk q) := by
  have e : k3_pay2 x0 x1 xs = addf xs (matmul dot_S1024x1024_S1024x128_S1024x128_1_0_0_1_n_n none (truncf .bf16 x0 bitsLt_bf16_f32) (truncf .bf16 x1 bitsLt_bf16_f32) (constant S1024x128 .f32 0x00000000#32)) := by
    unfold k3_pay2
    simp only [shapeCast_self]
  refine (congrFun e (ix2 p q)).trans (congrArg (xs (ix2 p q) + ·) ?_)
  refine (Ideal.matmul_constant_zero_apply dot_S1024x1024_S1024x128_S1024x128_1_0_0_1_n_n none (truncf .bf16 x0 bitsLt_bf16_f32) (truncf .bf16 x1 bitsLt_bf16_f32) (ix2 p q)).trans ?_
  exact PlainDot.sum_eq dot_S1024x1024_S1024x128_S1024x128_1_0_0_1_n_n rfl rfl rfl rfl rfl rfl (fun i => x0 i) (fun i => x1 i) p q

-- The 64 columns from column `o` on.
theorem half_apply (o : ℕ) (hs : S1024x128.Slices ![0, o] S1024x64) (v : Vec Ideal S1024x128 .f32) (p : Fin 1024) (q : Fin 64) (ho : q.val + o < 128) :
    extractStridedSlice S1024x64 ![0, o] v hs (ix2 p q) = v (ix2 p ⟨q.val + o, ho⟩) :=
  extractStridedSlice_apply _ _ hs (ix2 p q) (ix2 p ⟨q.val + o, ho⟩) fun a => by
    match a with
    | ⟨0, _⟩ => exact (Nat.zero_add _).symm
    | ⟨1, _⟩ => exact Nat.add_comm _ _

variable (V : (c : Dev nD) → (b : Ref sig .tc) → Buf (Elt Ideal) ((c : Thread nD τ).loc b))

abbrev adjArr (c : Dev nD) : Vec Ideal S8192x8192 .f32 := V c main_arg1
abbrev sArr (c : Dev nD) : Vec Ideal S8192x128 .f32 := V c main_v3

-- The block indices at point `t = 8 i + k`: `(i, k)` of adj, `(k, 0)` of main_v3, `(i, 0)` of each output.
theorem idx3 : ∀ t : Fin cfg3.N, win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = t.val / 8 ∧ win3_2.index t (1 : Fin 2) = 0
    ∧ win3_3.index t (0 : Fin 2) = t.val / 8 ∧ win3_3.index t (1 : Fin 2) = 0 :=
  (by decide +kernel : ∀ t : Fin grid3.N, _)

-- The two factors read at pairs of numbers, 0 outside their extents, so that positions add as numbers.
def adjN (c : Dev nD) (r k : ℕ) : EReal := if h : r < 8192 ∧ k < 8192 then adjArr V c (ix2 ⟨r, h.1⟩ ⟨k, h.2⟩) else 0
def sN (c : Dev nD) (k q : ℕ) : EReal := if h : k < 8192 ∧ q < 128 then sArr V c (ix2 ⟨k, h.1⟩ ⟨q, h.2⟩) else 0

theorem adjN_eq (c : Dev nD) (r k : Fin 8192) : adjN V c r.val k.val = adjArr V c (ix2 r k) := dif_pos ⟨r.isLt, k.isLt⟩
theorem sN_eq (c : Dev nD) (k : Fin 8192) (q : Fin 128) : sN V c k.val q.val = sArr V c (ix2 k q) := dif_pos ⟨k.isLt, q.isLt⟩

-- Entry `(p, kk)` of point `t`'s block of adj is entry `(1024 (t / 8) + p, 1024 (t % 8) + kk)` of adj,
theorem adjBlk_N (c : Dev nD) (t : Fin cfg3.N) (p kk : Fin 1024) :
    iblk3 V c 0 t (ix2 p kk) = adjN V c (t.val / 8 * 1024 + p.val) (t.val % 8 * 1024 + kk.val) := by
  have hN : t.val < 64 := lt_of_lt_of_eq t.isLt N_3
  obtain ⟨e0, e1, -⟩ := idx3 t
  unfold adjN iblk3
  rw [dif_pos ⟨by omega, by omega⟩, View.read_apply]
  show V c main_arg1 _ = V c main_arg1 _
  congr 1; funext a; apply Fin.ext
  match a with
  | ⟨0, _⟩ => show win3_0.index t 0 * 1024 + 1 * p.val = t.val / 8 * 1024 + p.val; rw [e0]; omega
  | ⟨1, _⟩ => show win3_0.index t 1 * 1024 + 1 * kk.val = t.val % 8 * 1024 + kk.val; rw [e1]; omega

-- and entry `(kk, q)` of its block of main_v3 is entry `(1024 (t % 8) + kk, q)` of main_v3.
theorem sBlk_N (c : Dev nD) (t : Fin cfg3.N) (kk : Fin 1024) (q : Fin 128) :
    iblk3 V c 1 t (ix2 kk q) = sN V c (t.val % 8 * 1024 + kk.val) q.val := by
  obtain ⟨-, -, e2, e3, -⟩ := idx3 t
  unfold sN iblk3
  rw [dif_pos ⟨by omega, q.isLt⟩, View.read_apply]
  show V c main_v3 _ = V c main_v3 _
  congr 1; funext a; apply Fin.ext
  match a with
  | ⟨0, _⟩ => show win3_1.index t 0 * 1024 + 1 * kk.val = t.val % 8 * 1024 + kk.val; rw [e2]; omega
  | ⟨1, _⟩ => show win3_1.index t 1 * 128 + 1 * q.val = q.val; rw [e3]; omega

-- Column block `j`'s share of entry `(r, q)` of the product.
def blockTerm (c : Dev nD) (r j q : ℕ) : EReal := ∑ kk : Fin 1024, adjN V c r (j * 1024 + kk.val) * sN V c (j * 1024 + kk.val) q

-- One step adds column block `t % 8`'s share, onto zero at the first point of a row block.
theorem acc_step (c : Dev nD) (n : ℕ) (hn : n < cfg3.N) (p : Fin 1024) (q : Fin 128) :
    acc3 V c (n + 1) (ix2 p q) = (if n % 8 = 0 then 0 else acc3 V c n (ix2 p q)) + blockTerm V c (n / 8 * 1024 + p.val) (n % 8) q.val := by
  refine (congrFun (dif_pos hn) _).trans ((pay2_apply _ _ _ p q).trans (congrArg₂ (· + ·) ?_ ?_))
  · by_cases h : n % 8 = 0
    · rw [if_pos h, if_pos ((hcond3_0 ⟨n, hn⟩).mpr h), pay1_apply]
    · rw [if_neg h, if_neg (mt (hcond3_0 ⟨n, hn⟩).mp h)]
  · exact Finset.sum_congr rfl fun kk _ => by rw [adjBlk_N V c ⟨n, hn⟩ p kk, sBlk_N V c ⟨n, hn⟩ kk q]

-- So after point `n = 8 i + k` the accumulator holds the shares of column blocks `0 … k`, added in that order.
theorem acc_inv (c : Dev nD) (p : Fin 1024) (q : Fin 128) : ∀ (n : ℕ) (hn : n < cfg3.N),
    acc3 V c (n + 1) (ix2 p q) = ∑ j ∈ Finset.range (n % 8 + 1), blockTerm V c (n / 8 * 1024 + p.val) j q.val := by
  intro n
  induction n with
  | zero => intro hn; rw [acc_step V c 0 hn p q, if_pos (Nat.zero_mod 8), zero_add, Nat.zero_mod, Finset.sum_range_one]
  | succ n ih =>
    intro hn
    rw [acc_step V c (n + 1) hn p q]
    by_cases h0 : (n + 1) % 8 = 0
    · rw [if_pos h0, zero_add, h0, Finset.sum_range_one]
    · rw [if_neg h0, ih (Nat.lt_of_succ_lt hn), show n / 8 = (n + 1) / 8 by omega, show n % 8 + 1 = (n + 1) % 8 by omega]
      exact (Finset.sum_range_succ _ _).symm

theorem funext_ix2 {α : Type} {n0 n1 : Nat} (f g : (⟨2, ![n0, n1]⟩ : Shape).Idx → α) (h : ∀ (p : Fin n0) (q : Fin n1), f (ix2 p q) = g (ix2 p q)) : f = g :=
  funext fun j => by rw [eq_ix2 j]; exact h _ _

-- At the last point of a row block the eight shares make the sum over all 8192 inner positions.
theorem acc_last (c : Dev nD) (t : Fin cfg3.N) (h1 : t.val % 8 = 7) (p : Fin 1024) (q : Fin 128) (r : Fin 8192) (hr : r.val = t.val / 8 * 1024 + p.val) :
    acc3 V c (t.val + 1) (ix2 p q) = ∑ k : Fin 8192, adjArr V c (ix2 r k) * sArr V c (ix2 k q) := by
  rw [acc_inv V c p q t.val t.isLt, h1, Finset.sum_range, ← hr]
  unfold blockTerm
  refine (BlockSum.sum_blocks 8 1024 (fun k : Fin (8 * 1024) => adjN V c r.val k.val * sN V c k.val q.val)).symm.trans ?_
  exact Finset.sum_congr rfl fun k _ => congrArg₂ (· * ·) (adjN_eq V c r k) (sN_eq V c k q)

section Half
variable (c : Dev nD) (o : ℕ) (ho : o + 64 ≤ 128)

-- Columns `o … o + 63` of adj times main_v3.
def G3 : Vec Ideal S8192x64 .f32 := fun i =>
  ∑ k : Fin 8192, adjArr V c (ix2 (i 0) k) * sArr V c (ix2 k ⟨(i 1).val + o, by have := idx2_lt1 i; omega⟩)

-- What the last point of row block `t / 8` stores of that half is rows `1024 (t / 8) …` of it, however `B` reads those rows.
theorem half_block (t : Fin cfg3.N) (h1 : t.val % 8 = 7) (hs : S1024x128.Slices ![0, o] S1024x64) (B : Vec Ideal S8192x64 .f32 → Vec Ideal S1024x64 .f32)
    (hB : ∀ G (p : Fin 1024) (q : Fin 64) (r : Fin 8192), r.val = t.val / 8 * 1024 + p.val → B G (ix2 p q) = G (ix2 r q)) :
    extractStridedSlice S1024x64 ![0, o] (acc3 V c (t.val + 1)) hs = B (G3 V c o ho) := by
  have hN : t.val < 64 := lt_of_lt_of_eq t.isLt N_3
  refine funext_ix2 (n0 := 1024) (n1 := 64) _ _ fun p q => ?_
  have hr : t.val / 8 * 1024 + p.val < 8192 := by omega
  rw [hB _ p q ⟨_, hr⟩ rfl]
  exact (half_apply o hs _ p q (by omega)).trans (acc_last V c t h1 p _ ⟨_, hr⟩ rfl)

end Half

-- Row `r` lies in row block `r / 1024`, whose last point is `8 (r / 1024) + 7`.
theorem cover_pt (i : S8192x64.Idx) : ∃ t : Fin cfg3.N, t.val = 8 * ((i 0).val / 1024) + 7 :=
  ⟨⟨_, by have := idx2_lt0 i; rw [show cfg3.N = 64 from N_3]; omega⟩, rfl⟩

theorem final3_lo_arr (c : Dev nD) : (dat3 V c).arrAt 2 cfg3.N = G3 V c 0 (by omega) := by
  refine (dat3 V c).arrAt_eq_of_cover 2 _ (fun t hf => ?_) fun i => ?_
  · obtain ⟨-, -, -, -, ea, eb, -⟩ := idx3 t
    show (cfg3.win 2).cut (grid3.coords t) ((dat3 V c).after 2 t) = _
    dsimp only [dat3, after3]
    refine half_block V c 0 _ t ((flush3_2 t).mp hf) slices_S1024x128_o0_0_S1024x64 _ fun G p q r hr => ?_
    rw [View.read_apply]; refine congrArg G (funext fun a => Fin.ext ?_)
    match a with
    | ⟨0, _⟩ => show win3_2.index t 0 * 1024 + 1 * p.val = r.val; rw [ea, hr]; omega
    | ⟨1, _⟩ => show win3_2.index t 1 * 64 + 1 * q.val = q.val; rw [eb]; omega
  · obtain ⟨t, ht⟩ := cover_pt i
    obtain ⟨-, -, -, -, ea, eb, -⟩ := idx3 t
    refine ⟨t, (flush3_2 t).mpr (by omega), ?_⟩
    show i ∈ ((View.whole main_v4_0).slice (win3_2.rect t)).set
    rw [View.set_slice_whole, Rect.mem_set_unit]
    intro a
    match a with
    | ⟨0, _⟩ => show win3_2.index t 0 * 1024 ≤ (i 0).val ∧ (i 0).val < win3_2.index t 0 * 1024 + 1024; rw [ea]; omega
    | ⟨1, _⟩ => show win3_2.index t 1 * 64 ≤ (i 1).val ∧ (i 1).val < win3_2.index t 1 * 64 + 64; rw [eb]; have := idx2_lt1 i; omega

theorem final3_hi_arr (c : Dev nD) : (dat3 V c).arrAt 3 cfg3.N = G3 V c 64 (by omega) := by
  refine (dat3 V c).arrAt_eq_of_cover 3 _ (fun t hf => ?_) fun i => ?_
  · obtain ⟨-, -, -, -, -, -, ea, eb⟩ := idx3 t
    show (cfg3.win 3).cut (grid3.coords t) ((dat3 V c).after 3 t) = _
    dsimp only [dat3, after3]
    refine half_block V c 64 _ t ((flush3_3 t).mp hf) slices_S1024x128_o0_64_S1024x64 _ fun G p q r hr => ?_
    rw [View.read_apply]; refine congrArg G (funext fun a => Fin.ext ?_)
    match a with
    | ⟨0, _⟩ => show win3_3.index t 0 * 1024 + 1 * p.val = r.val; rw [ea, hr]; omega
    | ⟨1, _⟩ => show win3_3.index t 1 * 64 + 1 * q.val = q.val; rw [eb]; omega
  · obtain ⟨t, ht⟩ := cover_pt i
    obtain ⟨-, -, -, -, -, -, ea, eb⟩ := idx3 t
    refine ⟨t, (flush3_3 t).mpr (by omega), ?_⟩
    show i ∈ ((View.whole main_v4_1).slice (win3_3.rect t)).set
    rw [View.set_slice_whole, Rect.mem_set_unit]
    intro a
    match a with
    | ⟨0, _⟩ => show win3_3.index t 0 * 1024 ≤ (i 0).val ∧ (i 0).val < win3_3.index t 0 * 1024 + 1024; rw [ea]; omega
    | ⟨1, _⟩ => show win3_3.index t 1 * 64 ≤ (i 1).val ∧ (i 1).val < win3_3.index t 1 * 64 + 64; rw [eb]; have := idx2_lt1 i; omega

end R3

variable (V : (c : Dev nD) → (b : Ref sig .tc) → Buf (Elt Ideal) ((c : Thread nD τ).loc b))

theorem final3_lo (c : Dev nD) (p : Fin 8192) (q : Fin 64) :
    (dat3 V c).arrAt 2 cfg3.N (ix2 p q) = ∑ k : Fin 8192, R3.adjArr V c (ix2 p k) * R3.sArr V c (ix2 k ⟨q.val, by omega⟩) :=
  congrFun (R3.final3_lo_arr V c) (ix2 p q)

theorem final3_hi (c : Dev nD) (p : Fin 8192) (q : Fin 64) :
    (dat3 V c).arrAt 3 cfg3.N (ix2 p q) = ∑ k : Fin 8192, R3.adjArr V c (ix2 p k) * R3.sArr V c (ix2 k ⟨q.val + 64, by omega⟩) :=
  congrFun (R3.final3_hi_arr V c) (ix2 p q)

end Cert.KernelIdeal.Hand

end
-- ==== Proof.LibDotRows.lean ====
import proofs.«141517_j31224412242681_1_alg».proof.Proof.LibPlainDot

namespace DotRows

open Idealize.ShloMosaic Idealize.ShloMosaic.ValueIdx

variable {R K C : Nat}

/-- A [R, K] array times the transpose of a [C, K] array: the sum at `(p, q)` is `∑ k < K, l (p, k) * r (q, k)`. -/
theorem sum_eq {M : Type} [AddCommMonoid M] [Mul M] (d : DotDims ⟨2, ![R, K]⟩ ⟨2, ![C, K]⟩ ⟨2, ![R, C]⟩)
    (hlb : d.lhsBatch = []) (hln : d.lhsNonContracting = [0]) (hlc : d.lhsContracting = [1])
    (hrb : d.rhsBatch = []) (hrn : d.rhsNonContracting = [0]) (hrc : d.rhsContracting = [1])
    (l : (⟨2, ![R, K]⟩ : Shape).Idx → M) (r : (⟨2, ![C, K]⟩ : Shape).Idx → M) (p : Fin R) (q : Fin C) :
    ∑ k : d.contr.Idx, l (d.lhsIdx (ix2 p q) k) * r (d.rhsIdx (ix2 p q) k) = ∑ k : Fin K, l (ix2 p k) * r (ix2 q k) :=
  PlainDot.sum_of d hlb hln hlc l r p q (fun k => ix2 q k) fun hr hs k => by
    funext a
    apply Fin.ext
    match a with
    | ⟨0, _⟩ => exact PlainDot.rhs_val_nc d 0 hrb hrn hlb hln (ix2 p q) _
    | ⟨1, _⟩ => exact (d.rhsIdx_val_of_single hrc (ix2 p q) _).trans (contrEquiv1_symm_val d K hr hs k)

end DotRows
-- ==== Proof.Val4.lean ====
import proofs.«141517_j31224412242681_1_alg».proof.Proof.F4
import proofs.«141517_j31224412242681_1_alg».proof.Proof.LibDotRows
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.ShloMosaic.ValueIdx
open Cert.KernelIdeal.Gen

abbrev Latent : Type := S8192x64.Idx → EReal

-- Entry (p, q) of the Gram matrix is the inner product of rows p and q.
def gram (z : Latent) : S8192x8192.Idx → EReal := fun i => ∑ k : Fin 64, z (ix2 (i 0) k) * z (ix2 (i 1) k)

-- Narrowing changes no ideal number, and a product into zero is the plain contraction sum.
theorem pay4_apply (x0 x1 : S2048x64.Idx → EReal) (y : S2048x2048.Idx) :
    k4_pay1 (F := Ideal) x0 x1 y = ∑ k : Fin 64, x0 (ix2 (y 0) k) * x1 (ix2 (y 1) k) := by
  obtain ⟨a, b, rfl⟩ : ∃ a b, y = ix2 a b := ⟨y 0, y 1, eq_ix2 y⟩
  unfold k4_pay1
  simp only [shapeCast_self]
  exact (Ideal.matmul_constant_zero_apply dot_S2048x64_S2048x64_S2048x2048_1_1_0_0_n_n none _ _ (ix2 a b)).trans
    (DotRows.sum_eq dot_S2048x64_S2048x64_S2048x2048_1_1_0_0_n_n rfl rfl rfl rfl rfl rfl _ _ a b)

-- The first input window follows the output's row of blocks, the second its column of blocks.
theorem idx_facts4 : ∀ t : Fin cfg4.N, win4_0.index t (0 : Fin 2) = win4_2.index t (0 : Fin 2)
    ∧ win4_0.index t (1 : Fin 2) = 0
    ∧ win4_1.index t (0 : Fin 2) = win4_2.index t (1 : Fin 2)
    ∧ win4_1.index t (1 : Fin 2) = 0 :=
  (by decide +kernel : ∀ t : Fin grid4.N, _)

-- Every block of the result is some point's.
theorem idx_onto4 : ∀ (q0 : Fin 4) (q1 : Fin 4), ∃ t : Fin cfg4.N, win4_2.index t = ![q0.val, q1.val] :=
  (by decide +kernel : ∀ (q0 : Fin 4) (q1 : Fin 4), ∃ t : Fin grid4.N, win4_2.index t = ![q0.val, q1.val])

variable (V : (c : Dev nD) → (b : Ref sig .tc) → Buf (Elt Ideal) ((c : Thread nD τ).loc b))

abbrev zArr (c : Dev nD) : Latent := V c main_v4_0

-- Point t's output block is block t of the Gram matrix.
theorem flushed4_eq (c : Dev nD) (t : Fin cfg4.N) :
    (dat4 V c).flushed 2 t = ((cfg4.win 2).blk t).view.read (Elt Ideal) (gram (zArr V c)) := by
  obtain ⟨e0, e1, e2, e3⟩ := idx_facts4 t
  funext j
  refine (pay4_apply (iblk4 V c 0 t) (iblk4 V c 1 t) j).trans ?_
  show _ = ∑ k : Fin 64, zArr V c (ix2 ((((cfg4.win 2).blk t).view.emb j) 0) k) * zArr V c (ix2 ((((cfg4.win 2).blk t).view.emb j) 1) k)
  refine Finset.sum_congr rfl fun k _ => ?_
  show zArr V c (((cfg4.win 0).blk t).view.emb (ix2 (j 0) k)) * zArr V c (((cfg4.win 1).blk t).view.emb (ix2 (j 1) k)) = _
  congr 2 <;> refine Shape.idx_ext₂ ?_ ?_
  · show win4_0.index t (0 : Fin 2) * 2048 + 1 * (j 0).val = win4_2.index t (0 : Fin 2) * 2048 + 1 * (j 0).val; omega
  · show win4_0.index t (1 : Fin 2) * 64 + 1 * k.val = k.val; omega
  · show win4_1.index t (0 : Fin 2) * 2048 + 1 * (j 1).val = win4_2.index t (1 : Fin 2) * 2048 + 1 * (j 1).val; omega
  · show win4_1.index t (1 : Fin 2) * 64 + 1 * k.val = k.val; omega

-- Entry (p, q) lies in the block with block indices (p / 2048, q / 2048).
theorem cover4 (i : S8192x8192.Idx) : ∃ t : Fin cfg4.N, (cfg4.win 2).flush t = true ∧ i ∈ ((cfg4.win 2).blk t).view.set := by
  have hi0 : (i 0).val < 8192 := (i 0).isLt
  have hi1 : (i 1).val < 8192 := (i 1).isLt
  obtain ⟨t, ht⟩ := idx_onto4 ⟨(i 0).val / 2048, by omega⟩ ⟨(i 1).val / 2048, by omega⟩
  have q0 : win4_2.index t (0 : Fin 2) = (i 0).val / 2048 := congrFun ht 0
  have q1 : win4_2.index t (1 : Fin 2) = (i 1).val / 2048 := congrFun ht 1
  refine ⟨t, flush4_2 t, ?_⟩
  show i ∈ ((View.whole main_v5).slice (win4_2.rect t)).set
  rw [View.set_slice_whole, Rect.mem_set_unit]
  intro a
  match a with
  | ⟨0, _⟩ => show win4_2.index t (0 : Fin 2) * 2048 ≤ (i 0).val ∧ (i 0).val < win4_2.index t (0 : Fin 2) * 2048 + 2048; omega
  | ⟨1, _⟩ => show win4_2.index t (1 : Fin 2) * 2048 ≤ (i 1).val ∧ (i 1).val < win4_2.index t (1 : Fin 2) * 2048 + 2048; omega

theorem final4 (c : Dev nD) (p q : Fin 8192) :
    (dat4 V c).arrAt 2 cfg4.N (ix2 p q) = ∑ k : Fin 64, zArr V c (ix2 p k) * zArr V c (ix2 q k) :=
  congrFun ((dat4 V c).arrAt_eq_of_cover 2 (gram (zArr V c)) (fun t _ => flushed4_eq V c t) cover4) (ix2 p q)

end Cert.KernelIdeal.Hand

end
-- ==== Proof.Spec.lean ====
import Idealize.ShloMosaic.Lib.ValueIdx
import Mathlib.Data.EReal.Basic

noncomputable section

/-! The graph auto-encoder's forward pass over the extended reals, entry by entry, as functions of the node features `x`, the
adjacency matrix `adj` and the weight matrices; the activation `act` is a parameter. -/

namespace GraphAE

open Idealize.ShloMosaic Idealize.ShloMosaic.ValueIdx

abbrev Sh (a b : ℕ) : Shape := ⟨2, ![a, b]⟩

variable (act : EReal → EReal)
variable (x : (Sh 8192 512).Idx → EReal) (adj : (Sh 8192 8192).Idx → EReal) (wh : (Sh 512 256).Idx → EReal)

/-- `x · wh`. -/
def support (p : Fin 8192) (q : Fin 256) : EReal := ∑ k : Fin 512, x (ix2 p k) * wh (ix2 k q)

/-- `act (adj · support)`. -/
def hidden (p : Fin 8192) (q : Fin 256) : EReal := act (∑ k : Fin 8192, adj (ix2 p k) * support x wh k q)

/-- A latent head with weights `w`: `adj · (hidden · w)`. -/
def latent (w : (Sh 256 64).Idx → EReal) (p : Fin 8192) (q : Fin 64) : EReal :=
  ∑ k : Fin 8192, adj (ix2 p k) * (∑ l : Fin 256, hidden act x adj wh k l * w (ix2 l q))

/-- `z · zᵀ` of the latent head `wm`. -/
def recon (wm : (Sh 256 64).Idx → EReal) (p q : Fin 8192) : EReal :=
  ∑ k : Fin 64, latent act x adj wh wm p k * latent act x adj wh wm q k

end GraphAE

end
-- ==== Proof.Packed.lean ====
import Idealize.ShloMosaic.Lib.Pipeline.Value
import Idealize.ShloMosaic.Lib.ValueIdx

noncomputable section

/-! Two [256, 64] matrices packed side by side: entry (l, q) of the [256, 128] matrix is the first's for q < 64, the second's from column 64 on. -/

namespace Packed

open Idealize.ShloMosaic Idealize.ShloMosaic.ValueIdx

variable {α : Type} (wm wl : (⟨2, ![256, 64]⟩ : Shape).Idx → α)
  (h : Shape.Concatenates [(⟨2, ![256, 64]⟩ : Shape), (⟨2, ![256, 64]⟩ : Shape)] (⟨2, ![256, 128]⟩ : Shape) 1) (l : Fin 256) (q : Fin 64)

theorem left (hq : q.val < 128) :
    concatenate (⟨2, ![256, 128]⟩ : Shape) 1 [⟨(⟨2, ![256, 64]⟩ : Shape), wm⟩, ⟨(⟨2, ![256, 64]⟩ : Shape), wl⟩] h (ix2 l ⟨q.val, hq⟩)
      = wm (ix2 l q) :=
  concatenate_pair_apply_left (1 : Fin 2) wm wl h (ix2 l ⟨q.val, hq⟩) rfl (ix2 l q)
    (fun b => by match b with | ⟨0, _⟩ => rfl | ⟨1, _⟩ => rfl)

theorem right (hq : q.val + 64 < 128) :
    concatenate (⟨2, ![256, 128]⟩ : Shape) 1 [⟨(⟨2, ![256, 64]⟩ : Shape), wm⟩, ⟨(⟨2, ![256, 64]⟩ : Shape), wl⟩] h (ix2 l ⟨q.val + 64, hq⟩)
      = wl (ix2 l q) :=
  concatenate_pair_apply_right (1 : Fin 2) wm wl h (ix2 l ⟨q.val + 64, hq⟩) rfl rfl (ix2 l q)
    (fun b hb => by
      match b with
      | ⟨0, _⟩ => rfl
      | ⟨1, _⟩ => exact absurd rfl hb)
    rfl

end Packed

end
-- ==== Proof.RefValue.lean ====
import proofs.«141517_j31224412242681_1_alg».proof.Defs
import proofs.«141517_j31224412242681_1_alg».proof.Proof.Gen.ReferenceIdeal.Run
import proofs.«141517_j31224412242681_1_alg».proof.Proof.Gen.ReferenceIdeal.Read
import proofs.«141517_j31224412242681_1_alg».proof.Proof.Spec
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Read

/-- The rectifier as the reference spells it: the maximum against the zero word. -/
def act (v : EReal) : EReal := max v (Ideal.ofBits .f32 0x00000000#32)

/-- An index of a matrix is the pair of its two coordinates. -/
theorem ix2_of {a b : ℕ} (i : (⟨2, ![a, b]⟩ : Shape).Idx) (p : Fin a) (q : Fin b) (h0 : (i 0).val = p.val) (h1 : (i 1).val = q.val) :
    i = ix2 p q :=
  funext fun d => Fin.ext (by match d with | ⟨0, _⟩ => exact h0 | ⟨1, _⟩ => exact h1)

variable (x0 : (⟨S8192x512, .f32⟩ : BufTy).Contents (Elt Ideal)) (x1 : (⟨S8192x8192, .f32⟩ : BufTy).Contents (Elt Ideal))
  (x2 : (⟨S512x256, .f32⟩ : BufTy).Contents (Elt Ideal)) (w : (⟨S256x64, .f32⟩ : BufTy).Contents (Elt Ideal))

/-! Each `dot_general` of the reference is the sum the specification writes, its operands read at `(p, k)` and `(k, q)`. -/

theorem support_at (p : Fin 8192) (q : Fin 256) : val_main_v0 (F := Ideal) x0 x2 (ix2 p q) = GraphAE.support x0 x2 p q := by
  rw [val_main_v0_apply]
  exact Finset.sum_congr rfl fun k _ => by rw [ix2_of (lidx_main_v0 _ k) p k rfl rfl, ix2_of (ridx_main_v0 _ k) k q rfl rfl]

theorem hidden_at (p : Fin 8192) (q : Fin 256) : val_main_v2 (F := Ideal) x0 x1 x2 (ix2 p q) = GraphAE.hidden act x0 x1 x2 p q := by
  rw [val_main_v2_apply, val_main_call0_v0_apply, val_main_call0_cst_apply, val_main_v1_apply]
  exact congrArg act (Finset.sum_congr rfl fun k _ => by
    rw [ix2_of (lidx_main_v1 _ k) p k rfl rfl, ix2_of (ridx_main_v1 _ k) k q rfl rfl, support_at])

theorem latent_mean (p : Fin 8192) (q : Fin 64) : val_main_v4 (F := Ideal) x0 x1 x2 w (ix2 p q) = GraphAE.latent act x0 x1 x2 w p q := by
  rw [val_main_v4_apply]
  exact Finset.sum_congr rfl fun k _ => by
    rw [ix2_of (lidx_main_v4 _ k) p k rfl rfl, ix2_of (ridx_main_v4 _ k) k q rfl rfl, val_main_v3_apply]
    exact congrArg _ (Finset.sum_congr rfl fun l _ => by
      rw [ix2_of (lidx_main_v3 _ l) k l rfl rfl, ix2_of (ridx_main_v3 _ l) l q rfl rfl, hidden_at])

theorem latent_logstd (p : Fin 8192) (q : Fin 64) : val_main_v6 (F := Ideal) x0 x1 x2 w (ix2 p q) = GraphAE.latent act x0 x1 x2 w p q := by
  rw [val_main_v6_apply]
  exact Finset.sum_congr rfl fun k _ => by
    rw [ix2_of (lidx_main_v6 _ k) p k rfl rfl, ix2_of (ridx_main_v6 _ k) k q rfl rfl, val_main_v5_apply]
    exact congrArg _ (Finset.sum_congr rfl fun l _ => by
      rw [ix2_of (lidx_main_v5 _ l) k l rfl rfl, ix2_of (ridx_main_v5 _ l) l q rfl rfl, hidden_at])

/-- The last product, of the mean head with its transpose, is the reconstruction. -/
theorem reconstruction (p q : Fin 8192) : val_main_v8 (F := Ideal) x0 x1 x2 w (ix2 p q) = GraphAE.recon act x0 x1 x2 w p q := by
  rw [val_main_v8_apply]
  exact Finset.sum_congr rfl fun k _ => by
    rw [ix2_of (lidx_main_v8 _ k) p k rfl rfl, ix2_of (ridx_main_v8 _ k) k q rfl rfl, val_main_v7_apply,
      ix2_of (idx_main_v7 _) q k rfl rfl, latent_mean, latent_mean]

end Cert.ReferenceIdeal.RefValue

end
-- ==== Proof.KernelValue.lean ====
import proofs.«141517_j31224412242681_1_alg».proof.Proof.Chain
import proofs.«141517_j31224412242681_1_alg».proof.Proof.Val0
import proofs.«141517_j31224412242681_1_alg».proof.Proof.Val1
import proofs.«141517_j31224412242681_1_alg».proof.Proof.Val2
import proofs.«141517_j31224412242681_1_alg».proof.Proof.Val3
import proofs.«141517_j31224412242681_1_alg».proof.Proof.Val4
import proofs.«141517_j31224412242681_1_alg».proof.Proof.Spec
import proofs.«141517_j31224412242681_1_alg».proof.Proof.Packed
import proofs.«141517_j31224412242681_1_alg».proof.Proof.RefValue

noncomputable section

namespace Cert.KernelIdeal.Hand

open Idealize.ShloMosaic Idealize.ShloMosaic.TcCoe Idealize.SL.Sem Idealize.ShloMosaic.ValueIdx
open Cert.KernelIdeal Cert.KernelIdeal.Gen
open Cert.ReferenceIdeal.RefValue (act)

variable (m : (ℓ : Loc nD τ sig) → Buf (Elt Ideal) ℓ) (ρ : Dev nD → PrngReg) (c : Dev nD)

/-! Each region finds its operands where the items before it left them. -/

theorem wHid_main_v0 : wHid m ρ c main_v0 = (dat0 (atTc (wLaunch m ρ)) c).arrAt 2 cfg0.N :=
  next_arr _ _ launch0.win.arr_inj c 2
theorem wCat_main_v1 : wCat m ρ c main_v1 = (dat1 (atTc (wHid m ρ)) c).arrAt 2 cfg1.N :=
  (StableHlo.after_of_writes_sub hostOps2 _ hostOps2_writes (by decide)).trans (next_arr _ _ launch1.win.arr_inj c 2)
theorem wCat_main_v2 : wCat m ρ c main_v2
    = concatenate S256x128 1 [⟨S256x64, m ((c : Thread nD τ).loc main_arg3)⟩, ⟨S256x64, m ((c : Thread nD τ).loc main_arg4)⟩] concatenates_S256x64_S256x64_S256x128_d1 := by
  show StableHlo.after hostOps2 (wAct m ρ c) (Proc.devRef .tc main_v2) = _
  after_results
  rw [wAct_kept m ρ c main_arg3 (by decide), wAct_kept m ρ c main_arg4 (by decide)]
theorem wProj_main_v3 : wProj m ρ c main_v3 = (dat2 (atTc (wCat m ρ)) c).arrAt 2 cfg2.N :=
  next_arr _ _ launch2.win.arr_inj c 2
theorem wLat_main_v4 (w : Fin 4) :
    wLat m ρ c (Proc.devRef .tc (Pipeline.arrRef spec3 w)) = (dat3 (atTc (wProj m ρ)) c).arrAt w cfg3.N :=
  next_arr _ _ launch3.win.arr_inj c w
theorem wGram_main_v4 (w : Fin 4) (hw : Pipeline.arrRef spec3 w ≠ main_v5) :
    wGram m ρ c (Proc.devRef .tc (Pipeline.arrRef spec3 w)) = (dat3 (atTc (wProj m ρ)) c).arrAt w cfg3.N :=
  (Function.update_of_ne (StableHlo.devRef_ne_of_ne hw) _ _).trans (wLat_main_v4 m ρ c w)
theorem wGram_main_v5 : wGram m ρ c main_v5 = (dat4 (atTc (wLat m ρ)) c).arrAt 2 cfg4.N :=
  Function.update_self _ _ _

abbrev argX : Vec Ideal S8192x512 .f32 := m ((c : Thread nD τ).loc main_arg0)
abbrev argAdj : Vec Ideal S8192x8192 .f32 := m ((c : Thread nD τ).loc main_arg1)
abbrev argWh : Vec Ideal S512x256 .f32 := m ((c : Thread nD τ).loc main_arg2)
abbrev argWm : Vec Ideal S256x64 .f32 := m ((c : Thread nD τ).loc main_arg3)
abbrev argWl : Vec Ideal S256x64 .f32 := m ((c : Thread nD τ).loc main_arg4)

/-! Each region's result is the specification's stage, entry by entry: its sum over the contraction axis of the stage before. -/

theorem support_stage (p : Fin 8192) (q : Fin 256) :
    (dat0 (atTc (wLaunch m ρ)) c).arrAt 2 cfg0.N (ix2 p q) = GraphAE.support (argX m c) (argWh m c) p q := by
  rw [final0 _ c p q]; rfl

theorem hidden_stage (p : Fin 8192) (q : Fin 256) :
    (dat1 (atTc (wHid m ρ)) c).arrAt 2 cfg1.N (ix2 p q) = GraphAE.hidden act (argX m c) (argAdj m c) (argWh m c) p q := by
  rw [final1 _ c p q]
  unfold GraphAE.hidden act
  simp only [adjArr1, supArr1, atTc, wHid_kept m ρ c main_arg1 (by decide), wHid_main_v0 m ρ c, support_stage m ρ c]
  rfl

theorem proj_stage (p : Fin 8192) (q : Fin 128) :
    (dat2 (atTc (wCat m ρ)) c).arrAt 2 cfg2.N (ix2 p q)
      = ∑ l : Fin 256, GraphAE.hidden act (argX m c) (argAdj m c) (argWh m c) p l
          * concatenate S256x128 1 [⟨S256x64, argWm m c⟩, ⟨S256x64, argWl m c⟩] concatenates_S256x64_S256x64_S256x128_d1 (ix2 l q) := by
  rw [final2 _ c p q]
  simp only [lhsArr2, rhsArr2, atTc, wCat_main_v1 m ρ c, wCat_main_v2 m ρ c, hidden_stage m ρ c] <;> rfl

/-- The packed matrix's left half is `W_mean` and its right half `W_logstd`: the two column halves are the two latent heads. -/
theorem latent_stage (p : Fin 8192) (q : Fin 64) :
    (dat3 (atTc (wProj m ρ)) c).arrAt 2 cfg3.N (ix2 p q) = GraphAE.latent act (argX m c) (argAdj m c) (argWh m c) (argWm m c) p q
    ∧ (dat3 (atTc (wProj m ρ)) c).arrAt 3 cfg3.N (ix2 p q) = GraphAE.latent act (argX m c) (argAdj m c) (argWh m c) (argWl m c) p q := by
  rw [final3_lo _ c p q, final3_hi _ c p q]
  unfold GraphAE.latent
  constructor <;>
    simp only [R3.adjArr, R3.sArr, atTc, wProj_kept m ρ c main_arg1 (by decide), wProj_main_v3 m ρ c, proj_stage m ρ c,
      Packed.left (argWm m c) (argWl m c), Packed.right (argWm m c) (argWl m c)] <;> rfl

theorem recon_stage (p q : Fin 8192) :
    (dat4 (atTc (wLat m ρ)) c).arrAt 2 cfg4.N (ix2 p q) = GraphAE.recon act (argX m c) (argAdj m c) (argWh m c) (argWm m c) p q := by
  rw [final4 _ c p q]
  unfold GraphAE.recon
  simp only [zArr, atTc, wLat_main_v4 m ρ c 2, (latent_stage m ρ c _ _).1] <;> rfl

/-! The three results as whole arrays. -/

theorem result_recon : (wGram m ρ c main_v5 : Vec Ideal S8192x8192 .f32)
    = fun j => GraphAE.recon act (argX m c) (argAdj m c) (argWh m c) (argWm m c) (j 0) (j 1) := by
  funext j
  rw [wGram_main_v5 m ρ c, eq_ix2 j]
  exact recon_stage m ρ c _ _

theorem result_mean : (wGram m ρ c main_v4_0 : Vec Ideal S8192x64 .f32)
    = fun j => GraphAE.latent act (argX m c) (argAdj m c) (argWh m c) (argWm m c) (j 0) (j 1) := by
  funext j
  rw [wGram_main_v4 m ρ c 2 (by decide), eq_ix2 j]
  exact (latent_stage m ρ c _ _).1

theorem result_logstd : (wGram m ρ c main_v4_1 : Vec Ideal S8192x64 .f32)
    = fun j => GraphAE.latent act (argX m c) (argAdj m c) (argWh m c) (argWl m c) (j 0) (j 1) := by
  funext j
  rw [wGram_main_v4 m ρ c 3 (by decide), eq_ix2 j]
  exact (latent_stage m ρ c _ _).2

end Cert.KernelIdeal.Hand

end
-- ==== Proof.Bridge.lean ====
import proofs.«141517_j31224412242681_1_alg».proof.Proof.KernelValue
import proofs.«141517_j31224412242681_1_alg».proof.Proof.Gen.Pre_finite_inputs

noncomputable section

namespace Cert.Proof.Claims

open Idealize.ShloMosaic Idealize.ShloMosaic.TcCoe Idealize.SL.Sem Idealize.ShloMosaic.ValueIdx
open Cert.KernelIdeal.Hand Cert.ReferenceIdeal.RefValue Cert.ReferenceIdeal.Read

/-- From memories agreeing on the five arguments both programs end with the specification's reconstruction and two latent heads. -/
theorem algebraic : Cert.algebraic_KernelIdeal_ReferenceIdeal := by
  intro m ρ m' ρ' _ hagree
  refine ⟨fun c => wGram m ρ c Cert.KernelIdeal.main_v5, fun c => wGram m ρ c Cert.KernelIdeal.main_v4_0,
    fun c => wGram m ρ c Cert.KernelIdeal.main_v4_1, run_named m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [val_main_v8_eq, (hagree c).1, (hagree c).2.1, (hagree c).2.2.1, (hagree c).2.2.2.1]
    refine Eq.trans ?_ (result_recon m ρ c).symm
    funext j
    rw [eq_ix2 j]
    exact reconstruction _ _ _ _ _ _
  · rw [val_main_v4_eq, (hagree c).1, (hagree c).2.1, (hagree c).2.2.1, (hagree c).2.2.2.1]
    refine Eq.trans ?_ (result_mean m ρ c).symm
    funext j
    rw [eq_ix2 j]
    exact latent_mean _ _ _ _ _ _
  · rw [val_main_v6_eq, (hagree c).1, (hagree c).2.1, (hagree c).2.2.1, (hagree c).2.2.2.2]
    refine Eq.trans ?_ (result_logstd m ρ c).symm
    funext j
    rw [eq_ix2 j]
    exact latent_logstd _ _ _ _ _ _

end Cert.Proof.Claims

end
-- ==== Proof.lean ====
import proofs.«141517_j31224412242681_1_alg».proof.Defs
import proofs.«141517_j31224412242681_1_alg».proof.Proof.Gen.Kernel
import proofs.«141517_j31224412242681_1_alg».proof.Proof.Gen.KernelIdeal
import proofs.«141517_j31224412242681_1_alg».proof.Proof.Gen.ReferenceIdeal
import proofs.«141517_j31224412242681_1_alg».proof.Proof.Gen.Pre_finite_inputs
import proofs.«141517_j31224412242681_1_alg».proof.Proof.Bits.Chain
import proofs.«141517_j31224412242681_1_alg».proof.Proof.Bridge

noncomputable section

namespace Cert.Proof

open Idealize.ShloMosaic Idealize.SL.Sem

/-- The kernel programs' frames are the runs of their five regions, the reference's its run with the results dropped; the
    idealization rewrote nothing. -/
theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2.2.2) (Cert.ReferenceIdeal.Value.run (F := Ideal) m ρ),
  trivial,
  Cert.Proof.Claims.algebraic⟩

end Cert.Proof

end
